-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S2560x128 .f32 .bf16
  ∧ IdealRules.truncf_extf.Statement Cert.KernelIdeal.S2560x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S10000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x40 .f32) (main_arg9 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S2560x128 : Shape := ⟨2, ![2560, 128]⟩
abbrev S1x2560 : Shape := ⟨2, ![1, 2560]⟩
abbrev S1000x128 : Shape := ⟨2, ![1000, 128]⟩
abbrev S1000x1 : Shape := ⟨2, ![1000, 1]⟩
abbrev S2560 : Shape := ⟨1, ![2560]⟩
abbrev S1000x2560 : Shape := ⟨2, ![1000, 2560]⟩
abbrev S1000 : Shape := ⟨1, ![1000]⟩
abbrev S1x40 : Shape := ⟨2, ![1, 40]⟩
abbrev S10000x40 : Shape := ⟨2, ![10000, 40]⟩
abbrev S1000x40 : Shape := ⟨2, ![1000, 40]⟩

abbrev nBuf : Space → Nat
  | .hbm => 39
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S1x128, .f32⟩
  | .hbm, ⟨25, _⟩ => ⟨S10000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S1x128, .f32⟩
  | .hbm, ⟨36, _⟩ => ⟨S10000x128, .f32⟩
  | .hbm, ⟨37, _⟩ => ⟨S1x40, .f32⟩
  | .hbm, ⟨38, _⟩ => ⟨S10000x40, .f32⟩
  | .local _ .vmem, ⟨0, _⟩ => ⟨S10000x128, .f32⟩
  | .local _ .vmem, ⟨1, _⟩ => ⟨S2560x128, .f32⟩
  | .local _ .vmem, ⟨2, _⟩ => ⟨S2560x128, .f32⟩
  | .local _ .vmem, ⟨3, _⟩ => ⟨S1x2560, .i32⟩
  | .local _ .vmem, ⟨4, _⟩ => ⟨S1x2560, .i32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x1, .f32⟩
  | .local _ .vmem, ⟨12, _⟩ => ⟨S10000x128, .f32⟩
  | .local _ .vmem, ⟨13, _⟩ => ⟨S2560x128, .f32⟩
  | .local _ .vmem, ⟨14, _⟩ => ⟨S2560x128, .f32⟩
  | .local _ .vmem, ⟨15, _⟩ => ⟨S1x2560, .i32⟩
  | .local _ .vmem, ⟨16, _⟩ => ⟨S1x2560, .i32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x1, .f32⟩
  | .local _ .vmem, ⟨24, _⟩ => ⟨S1000x128, .f32⟩
  | .local _ .vmem, ⟨25, _⟩ => ⟨S1000x128, .f32⟩
  | .local _ .vmem, ⟨26, _⟩ => ⟨S128x40, .f32⟩
  | .local _ .vmem, ⟨27, _⟩ => ⟨S1x40, .f32⟩
  | .local _ .vmem, ⟨28, _⟩ => ⟨S1000x40, .f32⟩
  | .local _ .vmem, ⟨29, _⟩ => ⟨S1000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![10, 250], ![false, false]⟩

def k0_mult1 (i : grid0.Coords) : BitVec 32 :=
  let arg0 : BitVec 32 := BitVec.ofNat 32 (i 0).val
  let c1000_i32 : BitVec 32 := 1000#32
  let v7 : BitVec 32 := Scalar.muli arg0 c1000_i32
  v7
def k0_cond2 (i : grid0.Coords) : BitVec 1 :=
  let arg1 : BitVec 32 := BitVec.ofNat 32 (i 1).val
  let c249_i32 : BitVec 32 := 249#32
  let v39 : BitVec 1 := Scalar.cmpi .eq arg1 c249_i32
  let v40 : BitVec 32 := Scalar.extui v39
  let c0_i32_14 : BitVec 32 := 0#32
  let v41 : BitVec 1 := Scalar.cmpi .ne v40 c0_i32_14
  v41

def k0_off1 (i : grid0.Coords) : Fin 2 → Nat :=
  let arg0 : BitVec 32 := BitVec.ofNat 32 (i 0).val
  let c1000_i32 : BitVec 32 := 1000#32
  let v7 : BitVec 32 := Scalar.muli arg0 c1000_i32
  let v8 : BitVec 32 := v7
  let v42 : Index := Scalar.indexCast v8
  let c0_15 : Index := 0#32
  ![v42.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2560 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![10, 250], ![false, false]⟩

def k1_mult1 (i : grid1.Coords) : BitVec 32 :=
  let arg0 : BitVec 32 := BitVec.ofNat 32 (i 0).val
  let c1000_i32 : BitVec 32 := 1000#32
  let v7 : BitVec 32 := Scalar.muli arg0 c1000_i32
  v7
def k1_cond2 (i : grid1.Coords) : BitVec 1 :=
  let arg1 : BitVec 32 := BitVec.ofNat 32 (i 1).val
  let c249_i32 : BitVec 32 := 249#32
  let v39 : BitVec 1 := Scalar.cmpi .eq arg1 c249_i32
  let v40 : BitVec 32 := Scalar.extui v39
  let c0_i32_14 : BitVec 32 := 0#32
  let v41 : BitVec 1 := Scalar.cmpi .ne v40 c0_i32_14
  v41

def k1_off1 (i : grid1.Coords) : Fin 2 → Nat :=
  let arg0 : BitVec 32 := BitVec.ofNat 32 (i 0).val
  let c1000_i32 : BitVec 32 := 1000#32
  let v7 : BitVec 32 := Scalar.muli arg0 c1000_i32
  let v8 : BitVec 32 := v7
  let v42 : Index := Scalar.indexCast v8
  let c0_15 : Index := 0#32
  ![v42.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2560x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2560 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S640000_S1x640000 : S640000.ShapeCasts S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x2560_S1x2560_0_0 : ∀ a, (![0, 0] : Fin 2 → Nat) a + S1x2560.size a ≤ S1x2560.size a
  h_S1x2560 : 0 < S1x2560.numel
  shapeCasts_S1x2560_S2560 : S1x2560.ShapeCasts S2560
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  iota_S1000x2560_d0_w32 : S1000x2560.Iotas .tc 32 [0]
  shapeCasts_S2560_S1x2560 : S2560.ShapeCasts S1x2560
  broadcasts_S1x2560_S1000x2560 : S1x2560.Broadcasts S1000x2560
  natLt_1_32 : 1 < 32
  bitsLt_bf16_f32 : FTy.bits .bf16 < FTy.bits .f32
  reduces_S1000x2560_S1000 : S1000x2560.Reduces [1] S1000
  shapeCasts_S1000_S1000x1 : S1000.ShapeCasts S1000x1
  broadcasts_S1000x1_S1000x128 : S1000x1.Broadcasts S1000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  inb_S1000x40_S1000x40_0_0 : ∀ a, (![0, 0] : Fin 2 → Nat) a + S1000x40.size a ≤ S1000x40.size a
  h_S1000x40 : 0 < S1000x40.numel
  gather_S10000x128_S640000x1_S640000x128_1_0_n_n_0_1_1128_wf : GatherDims.WF S10000x128 S640000x1 S640000x128 [1] [0] [] [0] [] 1 ![1, 128]
  dot_S1000x2560_S2560x128_S1000x128_1_0_0_1_n_n_wf : DotDims.WF S1000x2560 S2560x128 S1000x128 [1] [0] [0] [1] [] []
  dot_S1000x128_S128x128_S1000x128_1_0_0_1_n_n_wf : DotDims.WF S1000x128 S128x128 S1000x128 [1] [0] [0] [1] [] []
  dot_S1000x128_S128x40_S1000x40_1_0_0_1_n_n_wf : DotDims.WF S1000x128 S128x40 S1000x40 [1] [0] [0] [1] [] []
  hrank0 : 0 < grid0.rank
  k0_mult1_dvd : ∀ i : grid0.Coords, 1000 ∣ (k0_mult1 i).toNat
  k0_off1_inb : ∀ i : grid0.Coords, ∀ (k0_h2 : k0_cond2 i = 1#1), ∀ a, (k0_off1 i) a + S1000x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S640000x128.size a
  hwx0_1 : ∀ i : grid0.Coords, EltTy.bits .f32 = 32 ∨ (Rect.block (s := S640000x128) S2560x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2560.size a ≤ S1x640000.size a
  hwx0_2 : ∀ i : grid0.Coords, EltTy.bits .i32 = 32 ∨ (Rect.block (s := S1x640000) S1x2560.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S10000x128.size a
  hwx0_6 : ∀ i : grid0.Coords, EltTy.bits .f32 = 32 ∨ (Rect.block (s := S10000x128) S1000x128.size (cc0_transform_6 i) (hinb0_6 i)).WholeWords (EltTy.packing .f32)
  hrank1 : 0 < grid1.rank
  k1_mult1_dvd : ∀ i : grid1.Coords, 1000 ∣ (k1_mult1 i).toNat
  k1_off1_inb : ∀ i : grid1.Coords, ∀ (k1_h2 : k1_cond2 i = 1#1), ∀ a, (k1_off1 i) a + S1000x128.size a ≤ S10000x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S640000x128.size a
  hwx1_1 : ∀ i : grid1.Coords, EltTy.bits .f32 = 32 ∨ (Rect.block (s := S640000x128) S2560x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2560.size a ≤ S1x640000.size a
  hwx1_2 : ∀ i : grid1.Coords, EltTy.bits .i32 = 32 ∨ (Rect.block (s := S1x640000) S1x2560.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x40.size a ≤ S10000x40.size a
  hwx2_3 : ∀ i : grid2.Coords, EltTy.bits .f32 = 32 ∨ (Rect.block (s := S10000x40) S1000x40.size (cc2_transform_3 i) (hinb2_3 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S1000x2560_S2560x128_S1000x128_1_0_0_1_n_n : DotDims S1000x2560 S2560x128 S1000x128 where
  lhsContracting := [1]
  rhsContracting := [0]
  lhsNonContracting := [0]
  rhsNonContracting := [1]
  lhsBatch := []
  rhsBatch := []
  wf := dot_S1000x2560_S2560x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x40_S1000x40_1_0_0_1_n_n : DotDims S1000x128 S128x40 S1000x40 where
  lhsContracting := [1]
  rhsContracting := [0]
  lhsNonContracting := [0]
  rhsNonContracting := [1]
  lhsBatch := []
  rhsBatch := []
  wf := dot_S1000x128_S128x40_S1000x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2560.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v13) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2560.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v22) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S10000x40 : Shape := ⟨2, ![10000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S10000x128, .f32⟩
  | .hbm, ⟨25, _⟩ => ⟨S640000x1, .i32⟩
  | .hbm, ⟨26, _⟩ => ⟨S10000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S10000, .f32⟩
  | .hbm, ⟨31, _⟩ => ⟨S640000x1, .i32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S10000x128, .f32⟩
  | .hbm, ⟨59, _⟩ => ⟨S640000x1, .i32⟩
  | .hbm, ⟨60, _⟩ => ⟨S10000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S10000, .f32⟩
  | .hbm, ⟨65, _⟩ => ⟨S640000x1, .i32⟩
  | .hbm, ⟨66, _⟩ => ⟨S10000, .f32⟩
  | .hbm, ⟨67, _⟩ => ⟨S_, .f32⟩
  | .hbm, ⟨68, _⟩ => ⟨S10000, .f32⟩
  | .hbm, ⟨69, _⟩ => ⟨S10000, .f32⟩
  | .hbm, ⟨70, _⟩ => ⟨S10000x1, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S1x128, .f32⟩
  | .hbm, ⟨77, _⟩ => ⟨S10000x128, .f32⟩
  | .hbm, ⟨78, _⟩ => ⟨S10000x128, .f32⟩
  | .hbm, ⟨79, _⟩ => ⟨S_, .f32⟩
  | .hbm, ⟨80, _⟩ => ⟨S10000x128, .f32⟩
  | .hbm, ⟨81, _⟩ => ⟨S10000x128, .f32⟩
  | .hbm, ⟨82, _⟩ => ⟨S10000x40, .f32⟩
  | .hbm, ⟨83, _⟩ => ⟨S1x40, .f32⟩
  | .hbm, ⟨84, _⟩ => ⟨S10000x40, .f32⟩
  | .hbm, ⟨85, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.LibOwns.lean ====
import Idealize.ShloMosaic.Lib.Pipeline.FrameBody

noncomputable section

namespace Idealize.ShloMosaic

open Idealize.SL Idealize.ShloMosaic.TcCoe
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type} [∀ e, Nonempty (Val e)]
variable {Ix : Type} [DecidableEq Ix] {Name : Type} [DecidableEq Name] {U : Type} [URA U] {Lvl : Type}

local notation "𝕄" => MT nD τ sig Ix Val Name U Lvl

/-- Raw contents that read `X` give ownership at `X`. -/
theorem owns_unread (c : Thread nD τ) {sp : Space} {sh : Shape} {e : EltTy} {m : Memref sig c.2.kind sp sh e} (h : m.IsWhole)
    (q : PosShare TreeShare) (X : sh.Idx → Val e) :
    (m.view.loc c ↦[m.view.set]{q} h.unread X : sProp 𝕄) ⊢ iprop(∃ f, ⌜m.view.read Val f = X⌝ ∗ (m.view.loc c ↦[m.view.set]{q} f)) := by
  iintro H; iexists _; isplitr
  · ipureintro; exact h.read_unread _
  · iexact H

/-- What covering writes leave depends on neither where they are made nor on what was there before. -/
theorem owns_writes (c : Thread nD τ) {sp : Space} {sh : Shape} {e : EltTy} (m : Memref sig c.2.kind sp sh e) (q : PosShare TreeShare)
    {sig' : RefSig} {κ' : Kind} {sp' : Space} (v' : View sig' κ' sp' sh e) (f' : v'.ty.Contents Val)
    (L : List (View.Piece Val sh e)) (hc : ∀ y, ∃ p ∈ L, y ∈ p.1.set) :
    (iprop(∃ f, m.view.loc c ↦[m.view.set]{q} m.view.writes Val f L) : sProp 𝕄) ⊢ owns c m q (v'.read Val (v'.writes Val f' L)) := by
  iintro ⟨%f, H⟩; unfold owns; iexists m.view.writes Val f L; isplitr
  · ipureintro; exact View.read_writes_of_cover _ _ _ _ _ hc
  · iexact H

theorem Pipeline.Dat.leavesExact_live {Λ₀ : SL.Sem.Labels} {cfg : Pipeline.Cfg sig Λ₀} {c : Dev nD} (dat : Pipeline.Dat τ Val Ix Name U Lvl cfg c)
    (w : Fin cfg.W) (t : Fin cfg.N) (h : cfg.idle w (cfg.grid.coords t) = false) :
    dat.leavesExact w t = owns c ((cfg.win w).stage (cfg.slots t w)) fullShare (dat.after w t) := by
  unfold Pipeline.Dat.leavesExact; rw [h]

end Idealize.ShloMosaic

end
-- ==== Proof.K.Sage0Runs.lean ====
import proofs.«418495_j25864293056532_3_alg».proof.Proof.Gen.Kernel.Launch
import proofs.«418495_j25864293056532_3_alg».proof.Proof.Gen.Kernel.Skeleton
import proofs.«418495_j25864293056532_3_alg».proof.Proof.Gen.Kernel.Points
import proofs.«418495_j25864293056532_3_alg».proof.Proof.LibOwns
import Idealize.ShloMosaic.Lib.Pipeline.FrameSuffix
import Idealize.ShloMosaic.Lib.Ring
import Idealize.ShloMosaic.Lib.Tactic

noncomputable section

namespace Cert.Kernel.Frame

open Cert.Kernel.Gen
open Idealize.ShloMosaic Idealize.ShloMosaic.TcCoe
open Idealize.SL.RA Idealize.SL.BI
open scoped Idealize.SL.BI
open Idealize.SL.BI.BIBase

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 250 = 0 :=
  (by decide +kernel : ∀ t : Fin grid0.N, cond0_0 (grid0.coords t) ↔ t.val % 250 = 0)

abbrev cond0_1 (i : grid0.Coords) : Prop := k0_cond2 i = 1#1
theorem hcond0_1 : ∀ t : Fin cfg0.N, cond0_1 (grid0.coords t) ↔ t.val % 250 = 249 :=
  (by decide +kernel : ∀ t : Fin grid0.N, cond0_1 (grid0.coords t) ↔ t.val % 250 = 249)

theorem live0 : ∀ (w : Fin cfg0.W) (t : Fin cfg0.N), w ≠ 6 → cfg0.idle w (grid0.coords t) = false := by decide +kernel

theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel

theorem liveAt0_6 : ∀ t : Fin cfg0.N, cond0_1 (grid0.coords t) → cfg0.idle 6 (grid0.coords t) = false := by decide +kernel

abbrev VO0_6 : View sig .tc .vmem S1000x128 .f32 := (Memref.whole cc0_stg6_0 : Memref sig .tc .vmem S1000x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2560 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1000x128 .f32 := win0_6.stage (cfg0.slots t 6)
abbrev hs0_6 (t : Fin cfg0.N) : (ms0_6 t).IsWhole := hstage0_6 ((cfg0.slots t 6).cast nbuf0_6)

abbrev scM0_0 : Memref sig .tc .vmem S1000x128 .f32 := Memref.whole cc0_scratch0
abbrev scM0_1 : Memref sig .tc .vmem S1000x1 .f32 := Memref.whole cc0_scratch1
abbrev VS0_0 : View sig .tc .vmem S1000x128 .f32 := scM0_0.view
abbrev VS0_1 : View sig .tc .vmem S1000x1 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.Kernel.Frame

end
-- ==== Proof.K.Sage0Run.lean ====
import proofs.«418495_j25864293056532_3_alg».proof.Proof.K.Sage0Runs

noncomputable section

namespace Cert.Kernel.Frame

open Cert.Kernel.Gen
open Idealize.ShloMosaic Idealize.ShloMosaic.TcCoe
open Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

variable (c : Dev nD) (i : grid0.Coords)
  (arg2 : Memref sig .tc .vmem S10000x128 .f32) (harg2 : arg2.IsWhole) (arg3 : Memref sig .tc .vmem S2560x128 .f32) (harg3 : arg3.IsWhole)
  (arg4 : Memref sig .tc .vmem S1x2560 .i32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S1x128 .f32) (harg7 : arg7.IsWhole)
  (arg8 : Memref sig .tc .vmem S1000x128 .f32) (harg8 : arg8.IsWhole) (arg9 : Memref sig .tc .vmem S1000x128 .f32) (harg9 : arg9.IsWhole)
  (arg10 : Memref sig .tc .vmem S1000x1 .f32) (harg10 : arg10.IsWhole)
  (x0 : Vec F S10000x128 .f32) (x1 : Vec F S2560x128 .f32) (x2 : Vec F S1x2560 .i32) (x3 : Vec F S128x128 .f32) (x4 : Vec F S128x128 .f32)
  (x5 : Vec F S1x128 .f32)

abbrev ins0 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- A run of the body from `P` to `Q`, the operands kept and the two totals written through the pieces `LS0`, `LS1`. -/
abbrev Run0 (P Q : sProp 𝕄) (LS0 : List (View.Piece (Elt F) S1000x128 .f32)) (LS1 : List (View.Piece (Elt F) S1000x1 .f32)) : Prop :=
  ∀ (E : Set ℕ) (K : PUnit → sProp 𝕄),
    iprop(ins0 c arg2 arg3 arg4 arg5 arg6 arg7 x0 x1 x2 x3 x4 x5 ∗ P
        ∗ (iprop(ins0 c arg2 arg3 arg4 arg5 arg6 arg7 x0 x1 x2 x3 x4 x5 ∗ Q
            ∗ (∃ f, arg9.view.loc (c : Thread nD τ) ↦[arg9.view.set]{fullShare} arg9.view.writes (Elt F) f LS0)
            ∗ (∃ f, arg10.view.loc (c : Thread nD τ) ↦[arg10.view.set]{fullShare} arg10.view.writes (Elt F) f LS1)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9 arg10 harg10) K

noncomputable def kernelRun0_A (hc0 : cond0_0 i) (hc1 : ¬cond0_1 i) :
    Σ' (L6 : List (View.Piece (Elt F) S1000x128 .f32)) (LS0 : List (View.Piece (Elt F) S1000x128 .f32)), { LS1 : List (View.Piece (Elt F) S1000x1 .f32) //
      ∀ xi6 : Vec F S1000x128 .f32, Run0 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ (∃ d, owns (c : Thread nD τ) arg9 fullShare d) ∗ (∃ d, owns (c : Thread nD τ) arg10 fullShare d))
        (owns (c : Thread nD τ) arg8 fullShare xi6) LS0 LS1 } := by
  refine ⟨[], ?_, ?_, fun xi6 E K => ?run⟩
  case run =>
    simp only [cc0__sage_kernel_eq_skeleton]; unfold cc0__sage_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%ds0, %fs0, -, HS0⟩, ⟨%ds1, %fs1, -, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun0_B (hc0 : ¬cond0_0 i) (hc1 : ¬cond0_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      ∀ xi6 : Vec F S1000x128 .f32, Run0 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ owns (c : Thread nD τ) arg9 fullShare xs0 ∗ owns (c : Thread nD τ) arg10 fullShare xs1)
        (owns (c : Thread nD τ) arg8 fullShare xi6) LS0 LS1 } := by
  refine ⟨[], ?_, ?_, fun xi6 E K => ?run⟩
  case run =>
    simp only [cc0__sage_kernel_eq_skeleton]; unfold cc0__sage_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun0_C (hc0 : ¬cond0_0 i) (hc1 : cond0_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      Run0 c i arg2 harg2 arg3 harg3 arg4 harg4 arg5 harg5 arg6 harg6 arg7 harg7 arg8 harg8 arg9 harg9 arg10 harg10 x0 x1 x2 x3 x4 x5
        iprop((∃ d, owns (c : Thread nD τ) arg8 fullShare d) ∗ owns (c : Thread nD τ) arg9 fullShare xs0 ∗ owns (c : Thread nD τ) arg10 fullShare xs1)
        iprop(∃ f, arg8.view.loc (c : Thread nD τ) ↦[arg8.view.set]{fullShare} arg8.view.writes (Elt F) f L6) LS0 LS1 } := by
  refine ⟨?_, ?_, ?_, fun E K => ?run⟩
  case run =>
    simp only [cc0__sage_kernel_eq_skeleton]; unfold cc0__sage_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%d6, %f6, -, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iexists _; iexact H6
    isplitl [HS0]; · iexists _; iexact HS0
    iexists _; iexact HS1

end Cert.Kernel.Frame

end
-- ==== Proof.K.Sage0Frame.lean ====
import proofs.«418495_j25864293056532_3_alg».proof.Proof.K.Sage0Run

noncomputable section

namespace Cert.Kernel.Frame

open Cert.Kernel.Gen
open Idealize.ShloMosaic Idealize.ShloMosaic.TcCoe
open Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

section
variable (hc0 : cond0_0 (grid0.coords t)) (hc1 : ¬cond0_1 (grid0.coords t))
abbrev run0_A := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk0 V c 0 t) (iblk0 V c 1 t) (iblk0 V c 2 t) (iblk0 V c 3 t) (iblk0 V c 4 t) (iblk0 V c 5 t) hc0 hc1

def out0_A_6 : Vec F S1000x128 .f32 :=
  VO0_6.read (Elt F) (VO0_6.writes (Elt F) VO0_6.junk (run0_A V c t hc0 hc1).1)
theorem scover0_A_0 (y : S1000x128.Idx) : ∃ pc ∈ (run0_A V c t hc0 hc1).2.1, y ∈ pc.1.set :=
  View.cover_of_tiledL _ S1000x128.size (by sl_kernel_rfl) y
def sout0_A_0 : Vec F S1000x128 .f32 :=
  VS0_0.read (Elt F) (VS0_0.writes (Elt F) VS0_0.junk (run0_A V c t hc0 hc1).2.1)
theorem scover0_A_1 (y : S1000x1.Idx) : ∃ pc ∈ (run0_A V c t hc0 hc1).2.2.1, y ∈ pc.1.set :=
  View.cover_of_tiledL _ S1000x1.size (by sl_kernel_rfl) y
def sout0_A_1 : Vec F S1000x1 .f32 :=
  VS0_1.read (Elt F) (VS0_1.writes (Elt F) VS0_1.junk (run0_A V c t hc0 hc1).2.2.1)
end

section
variable (hc0 : ¬cond0_0 (grid0.coords t)) (hc1 : ¬cond0_1 (grid0.coords t)) (xs0 : Vec F S1000x128 .f32) (xs1 : Vec F S1000x1 .f32)
abbrev run0_B := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk0 V c 0 t) (iblk0 V c 1 t) (iblk0 V c 2 t) (iblk0 V c 3 t) (iblk0 V c 4 t) (iblk0 V c 5 t) hc0 hc1 xs0 xs1

def out0_B_6 : Vec F S1000x128 .f32 :=
  VO0_6.read (Elt F) (VO0_6.writes (Elt F) VO0_6.junk (run0_B V c t hc0 hc1 xs0 xs1).1)
theorem scover0_B_0 (y : S1000x128.Idx) : ∃ pc ∈ (run0_B V c t hc0 hc1 xs0 xs1).2.1, y ∈ pc.1.set :=
  View.cover_of_tiledL _ S1000x128.size (by sl_kernel_rfl) y
def sout0_B_0 : Vec F S1000x128 .f32 :=
  VS0_0.read (Elt F) (VS0_0.writes (Elt F) VS0_0.junk (run0_B V c t hc0 hc1 xs0 xs1).2.1)
theorem scover0_B_1 (y : S1000x1.Idx) : ∃ pc ∈ (run0_B V c t hc0 hc1 xs0 xs1).2.2.1, y ∈ pc.1.set :=
  View.cover_of_tiledL _ S1000x1.size (by sl_kernel_rfl) y
def sout0_B_1 : Vec F S1000x1 .f32 :=
  VS0_1.read (Elt F) (VS0_1.writes (Elt F) VS0_1.junk (run0_B V c t hc0 hc1 xs0 xs1).2.2.1)
end

section
variable (hc0 : ¬cond0_0 (grid0.coords t)) (hc1 : cond0_1 (grid0.coords t)) (xs0 : Vec F S1000x128 .f32) (xs1 : Vec F S1000x1 .f32)
abbrev run0_C := kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk0 V c 0 t) (iblk0 V c 1 t) (iblk0 V c 2 t) (iblk0 V c 3 t) (iblk0 V c 4 t) (iblk0 V c 5 t) hc0 hc1 xs0 xs1

def out0_C_6 : Vec F S1000x128 .f32 :=
  VO0_6.read (Elt F) (VO0_6.writes (Elt F) VO0_6.junk (run0_C V c t hc0 hc1 xs0 xs1).1)
theorem cover0_C_6 (y : S1000x128.Idx) : ∃ pc ∈ (run0_C V c t hc0 hc1 xs0 xs1).1, y ∈ pc.1.set :=
  View.cover_of_tiledL _ S1000x128.size (by sl_kernel_rfl) y
theorem scover0_C_0 (y : S1000x128.Idx) : ∃ pc ∈ (run0_C V c t hc0 hc1 xs0 xs1).2.1, y ∈ pc.1.set :=
  View.cover_of_tiledL _ S1000x128.size (by sl_kernel_rfl) y
def sout0_C_0 : Vec F S1000x128 .f32 :=
  VS0_0.read (Elt F) (VS0_0.writes (Elt F) VS0_0.junk (run0_C V c t hc0 hc1 xs0 xs1).2.1)
theorem scover0_C_1 (y : S1000x1.Idx) : ∃ pc ∈ (run0_C V c t hc0 hc1 xs0 xs1).2.2.1, y ∈ pc.1.set :=
  View.cover_of_tiledL _ S1000x1.size (by sl_kernel_rfl) y
def sout0_C_1 : Vec F S1000x1 .f32 :=
  VS0_1.read (Elt F) (VS0_1.writes (Elt F) VS0_1.junk (run0_C V c t hc0 hc1 xs0 xs1).2.2.1)
end

def step0_A (h0 : t.val % 250 = 0) (h1 : ¬t.val % 250 = 249) : Vec F S1000x128 .f32 × Vec F S1000x128 .f32 × Vec F S1000x1 .f32 :=
  (out0_A_6 V c t ((hcond0_0 t).mpr h0) (fun h => h1 ((hcond0_1 t).mp h)), sout0_A_0 V c t ((hcond0_0 t).mpr h0) (fun h => h1 ((hcond0_1 t).mp h)), sout0_A_1 V c t ((hcond0_0 t).mpr h0) (fun h => h1 ((hcond0_1 t).mp h)))
def step0_B (h0 : ¬t.val % 250 = 0) (h1 : ¬t.val % 250 = 249) (xs0 : Vec F S1000x128 .f32) (xs1 : Vec F S1000x1 .f32) : Vec F S1000x128 .f32 × Vec F S1000x128 .f32 × Vec F S1000x1 .f32 :=
  (out0_B_6 V c t (fun h => h0 ((hcond0_0 t).mp h)) (fun h => h1 ((hcond0_1 t).mp h)) xs0 xs1, sout0_B_0 V c t (fun h => h0 ((hcond0_0 t).mp h)) (fun h => h1 ((hcond0_1 t).mp h)) xs0 xs1, sout0_B_1 V c t (fun h => h0 ((hcond0_0 t).mp h)) (fun h => h1 ((hcond0_1 t).mp h)) xs0 xs1)
def step0_C (h0 : ¬t.val % 250 = 0) (h1 : t.val % 250 = 249) (xs0 : Vec F S1000x128 .f32) (xs1 : Vec F S1000x1 .f32) : Vec F S1000x128 .f32 × Vec F S1000x128 .f32 × Vec F S1000x1 .f32 :=
  (out0_C_6 V c t (fun h => h0 ((hcond0_0 t).mp h)) ((hcond0_1 t).mpr h1) xs0 xs1, sout0_C_0 V c t (fun h => h0 ((hcond0_0 t).mp h)) ((hcond0_1 t).mpr h1) xs0 xs1, sout0_C_1 V c t (fun h => h0 ((hcond0_0 t).mp h)) ((hcond0_1 t).mpr h1) xs0 xs1)

def outsAt0 : (n : ℕ) → n < cfg0.N → Vec F S1000x128 .f32 × Vec F S1000x128 .f32 × Vec F S1000x1 .f32
  | 0, hn => step0_A V c ⟨0, hn⟩ (Nat.zero_mod _) (show ¬ (0 % 250 = 249) by decide)
  | n + 1, hn =>
    if h0 : (n + 1) % 250 = 0 then
      if h1 : (n + 1) % 250 = 249 then False.elim (by omega)
      else step0_A V c ⟨n + 1, hn⟩ h0 h1
    else
      if h1 : (n + 1) % 250 = 249 then
        step0_C V c ⟨n + 1, hn⟩ h0 h1 (outsAt0 n (Nat.lt_of_succ_lt hn)).2.1 (outsAt0 n (Nat.lt_of_succ_lt hn)).2.2
      else
        step0_B V c ⟨n + 1, hn⟩ h0 h1 (outsAt0 n (Nat.lt_of_succ_lt hn)).2.1 (outsAt0 n (Nat.lt_of_succ_lt hn)).2.2

theorem outsAt0_A (h0 : t.val % 250 = 0) (h1 : ¬t.val % 250 = 249) : outsAt0 V c t.val t.isLt = step0_A V c t h0 h1 := by
  obtain ⟨n, hn⟩ := t
  cases n with
  | zero => rfl
  | succ n => exact (dif_pos h0).trans ((dif_neg h1).trans rfl)

theorem outsAt0_B (h0 : ¬t.val % 250 = 0) (h1 : ¬t.val % 250 = 249) :
    outsAt0 V c t.val t.isLt = step0_B V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (h0 : ¬t.val % 250 = 0) (h1 : t.val % 250 = 249) :
    outsAt0 V c t.val t.isLt = step0_C V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

def PhiAt0 (a : Vec F S1000x128 .f32) (b : Vec F S1000x1 .f32) : sProp 𝕄 :=
  iprop(iprop(iprop(owns (c : Thread nD τ) scM0_0 fullShare a ∗ owns (c : Thread nD τ) scM0_1 fullShare b)
      ∗ Pipeline.scopedRestBut (Ix := Unit) (Name := ℕ) (U := UR sig nD τ) (Lvl := ℕ) (Val := Elt F) spec0 c [cc0_scratch0, cc0_scratch1]) ∗ (∃ r, prngReg c r))

/-- Between points the accumulators are held at what the point before left in them; before the first point, at anything. -/
def PhiS0 : (n : ℕ) → n ≤ cfg0.N → sProp 𝕄
  | 0, _ => Pipeline.ΦA spec0 c
  | n + 1, hn => PhiAt0 c (outsAt0 V c n hn).2.1 (outsAt0 V c n hn).2.2

theorem PhiS0_pos (n : ℕ) (h : n ≤ cfg0.N) (hz : n ≠ 0) :
    PhiS0 V c n h = PhiAt0 c (outsAt0 V c (n - 1) (by omega)).2.1 (outsAt0 V c (n - 1) (by omega)).2.2 := by
  cases n with
  | zero => exact absurd rfl hz
  | succ n => rfl

/-- Forgetting what the accumulators hold gives the region's plain invariant back. -/
theorem PhiS0_any (n : ℕ) (h : n ≤ cfg0.N) : PhiS0 V c n h ⊢ Pipeline.ΦA spec0 c := by
  cases n with
  | zero => exact .rfl
  | succ n =>
    rw [PhiA0_eq]; unfold PhiS0 PhiAt0
    iintro ⟨⟨⟨HS0, HS1⟩, $⟩, $⟩
    isplitl [HS0] <;> iexists _ <;> iassumption

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = iblk0 V c 4 t := rfl
theorem after0_5 : (dat0 V c).after 5 t = iblk0 V c 5 t := rfl
theorem after0_6 : (dat0 V c).after 6 t = (outsAt0 V c t.val t.isLt).1 := rfl

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl
theorem before0_5 (d) : (dat0 V c).before 5 t d = iblk0 V c 5 t :=
  ((dat0 V c).before_in_eq_fetched 5 rfl (fun _ => rfl) (fun _ _ _ => rfl) (fun _ => rfl) t d).trans rfl

/-- By cases on the point's place in its node block; the totals pass from each point to the next through the invariant. -/
theorem sound_body0 :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t
        ∗ (dat0 V c).leavesExact 4 t ∗ (dat0 V c).leavesExact 5 t ∗ (dat0 V c).leavesExact 6 t)) := by
  unfold bodyAt0
  simp only [before0_0, before0_1, before0_2, before0_3, before0_4, before0_5]
  rw [show (dat0 V c).owesAt () t.succ = (dat0 V c).owesAt () t.castSucc from rfl,
    show (dat0 V c).Φ t.succ = PhiAt0 c (outsAt0 V c t.val t.isLt).2.1 (outsAt0 V c t.val t.isLt).2.2 from rfl,
    show (dat0 V c).Φ t.castSucc = PhiS0 V c t.val (Nat.le_of_lt t.isLt) from rfl,
    (dat0 V c).leavesExact_live 0 t (live0 0 t (by decide)), (dat0 V c).leavesExact_live 1 t (live0 1 t (by decide)), (dat0 V c).leavesExact_live 2 t (live0 2 t (by decide)), (dat0 V c).leavesExact_live 3 t (live0 3 t (by decide)), (dat0 V c).leavesExact_live 4 t (live0 4 t (by decide)), (dat0 V c).leavesExact_live 5 t (live0 5 t (by decide)),
    after0_0, after0_1, after0_2, after0_3, after0_4, after0_5]
  by_cases h0 : t.val % 250 = 0
  · have h1 : ¬t.val % 250 = 249 := by omega
    have hc1 : ¬cond0_1 (grid0.coords t) := fun h => h1 ((hcond0_1 t).mp h)
    rw [Dat.leavesExact_idle (dat0 V c) 6 t (idleAt0_6 t hc1) (noFlush0_6 t hc1), outsAt0_A V c t h0 h1]
    unfold step0_A sout0_A_0 sout0_A_1; dsimp only
    refine (sep_mono (PhiS0_any V c _ _) .rfl).trans ?_
    rw [PhiA0_eq]; unfold PhiAt0
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((run0_A V c t ((hcond0_0 t).mpr h0) hc1).2.2.2 _ Set.univ _)
    unfold ins0
    iframe
    iintro ⟨⟨H0, H1, H2, H3, H4, H5⟩, H6, HS0, HS1⟩
    iframe
    isplitl [HS0 HS1]
    · isplitl [HS0]; · iapply owns_writes _ _ _ _ _ _ (scover0_A_0 V c t _ _); iexact HS0
      iapply owns_writes _ _ _ _ _ _ (scover0_A_1 V c t _ _); iexact HS1
    iexists _; iexact H6
  · have hc0 : ¬cond0_0 (grid0.coords t) := fun h => h0 ((hcond0_0 t).mp h)
    rw [PhiS0_pos V c _ _ fun hz => h0 (by rw [hz])]; unfold PhiAt0
    by_cases h1 : t.val % 250 = 249
    · rw [(dat0 V c).leavesExact_live 6 t (liveAt0_6 t ((hcond0_1 t).mpr h1)), after0_6, outsAt0_C V c t h0 h1]
      unfold step0_C out0_C_6 sout0_C_0 sout0_C_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run0_C V c t hc0 ((hcond0_1 t).mpr h1) _ _).2.2.2 Set.univ _)
      unfold ins0
      iframe
      isplitl [H6]; · iexists _; iexact H6
      iintro ⟨⟨H0, H1, H2, H3, H4, H5⟩, H6, HS0, HS1⟩
      iframe
      isplitl [HS0 HS1]
      · isplitl [HS0]; · iapply owns_writes _ _ _ _ _ _ (scover0_C_0 V c t _ _ _ _); iexact HS0
        iapply owns_writes _ _ _ _ _ _ (scover0_C_1 V c t _ _ _ _); iexact HS1
      iapply owns_writes _ _ _ _ _ _ (cover0_C_6 V c t _ _ _ _); iexact H6
    · have hc1 : ¬cond0_1 (grid0.coords t) := fun h => h1 ((hcond0_1 t).mp h)
      rw [Dat.leavesExact_idle (dat0 V c) 6 t (idleAt0_6 t hc1) (noFlush0_6 t hc1), outsAt0_B V c t h0 h1]
      unfold step0_B sout0_B_0 sout0_B_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run0_B V c t hc0 hc1 _ _).2.2.2 _ Set.univ _)
      unfold ins0
      iframe
      iintro ⟨⟨H0, H1, H2, H3, H4, H5⟩, H6, HS0, HS1⟩
      iframe
      isplitl [HS0 HS1]
      · isplitl [HS0]; · iapply owns_writes _ _ _ _ _ _ (scover0_B_0 V c t _ _ _ _); iexact HS0
        iapply owns_writes _ _ _ _ _ _ (scover0_B_1 V c t _ _ _ _); iexact HS1
      iexists _; iexact H6

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem Phi_any0 (t : Fin (cfg0.N + 1)) : (dat0 V c).Φ t ⊢ Pipeline.ΦA spec0 c := PhiS0_any V c t.val _

theorem hout0 : (dat0 V c).Φ (Fin.last cfg0.N) ⊢ Pipeline.ΦA spec0 c := Phi_any0 V c _

end Cert.Kernel.Frame

end
-- ==== Proof.K.Sage1Runs.lean ====
import proofs.«418495_j25864293056532_3_alg».proof.Proof.Gen.Kernel.Launch
import proofs.«418495_j25864293056532_3_alg».proof.Proof.Gen.Kernel.Skeleton
import proofs.«418495_j25864293056532_3_alg».proof.Proof.Gen.Kernel.Points
import proofs.«418495_j25864293056532_3_alg».proof.Proof.LibOwns
import Idealize.ShloMosaic.Lib.Pipeline.FrameSuffix
import Idealize.ShloMosaic.Lib.Ring
import Idealize.ShloMosaic.Lib.Tactic

noncomputable section

namespace Cert.Kernel.Frame

open Cert.Kernel.Gen
open Idealize.ShloMosaic Idealize.ShloMosaic.TcCoe
open Idealize.SL.RA Idealize.SL.BI
open scoped Idealize.SL.BI
open Idealize.SL.BI.BIBase

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 250 = 0 :=
  (by decide +kernel : ∀ t : Fin grid1.N, cond1_0 (grid1.coords t) ↔ t.val % 250 = 0)

abbrev cond1_1 (i : grid1.Coords) : Prop := k1_cond2 i = 1#1
theorem hcond1_1 : ∀ t : Fin cfg1.N, cond1_1 (grid1.coords t) ↔ t.val % 250 = 249 :=
  (by decide +kernel : ∀ t : Fin grid1.N, cond1_1 (grid1.coords t) ↔ t.val % 250 = 249)

theorem live1 : ∀ (w : Fin cfg1.W) (t : Fin cfg1.N), w ≠ 6 → cfg1.idle w (grid1.coords t) = false := by decide +kernel

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel

theorem liveAt1_6 : ∀ t : Fin cfg1.N, cond1_1 (grid1.coords t) → cfg1.idle 6 (grid1.coords t) = false := by decide +kernel

abbrev VO1_6 : View sig .tc .vmem S1000x128 .f32 := (Memref.whole cc1_stg6_0 : Memref sig .tc .vmem S1000x128 .f32).view
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2560 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x128 .f32 := win1_6.stage (cfg1.slots t 6)
abbrev hs1_6 (t : Fin cfg1.N) : (ms1_6 t).IsWhole := hstage1_6 ((cfg1.slots t 6).cast nbuf1_6)

abbrev scM1_0 : Memref sig .tc .vmem S1000x128 .f32 := Memref.whole cc1_scratch0
abbrev scM1_1 : Memref sig .tc .vmem S1000x1 .f32 := Memref.whole cc1_scratch1
abbrev VS1_0 : View sig .tc .vmem S1000x128 .f32 := scM1_0.view
abbrev VS1_1 : View sig .tc .vmem S1000x1 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.Kernel.Frame

end
-- ==== Proof.K.Sage1Run.lean ====
import proofs.«418495_j25864293056532_3_alg».proof.Proof.K.Sage1Runs

noncomputable section

namespace Cert.Kernel.Frame

open Cert.Kernel.Gen
open Idealize.ShloMosaic Idealize.ShloMosaic.TcCoe
open Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

variable (c : Dev nD) (i : grid1.Coords)
  (arg2 : Memref sig .tc .vmem S10000x128 .f32) (harg2 : arg2.IsWhole) (arg3 : Memref sig .tc .vmem S2560x128 .f32) (harg3 : arg3.IsWhole)
  (arg4 : Memref sig .tc .vmem S1x2560 .i32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S1x128 .f32) (harg7 : arg7.IsWhole)
  (arg8 : Memref sig .tc .vmem S1000x128 .f32) (harg8 : arg8.IsWhole) (arg9 : Memref sig .tc .vmem S1000x128 .f32) (harg9 : arg9.IsWhole)
  (arg10 : Memref sig .tc .vmem S1000x1 .f32) (harg10 : arg10.IsWhole)
  (x0 : Vec F S10000x128 .f32) (x1 : Vec F S2560x128 .f32) (x2 : Vec F S1x2560 .i32) (x3 : Vec F S128x128 .f32) (x4 : Vec F S128x128 .f32)
  (x5 : Vec F S1x128 .f32)

abbrev ins1 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- A run of the body from `P` to `Q`, the operands kept and the two totals written through the pieces `LS0`, `LS1`. -/
abbrev Run1 (P Q : sProp 𝕄) (LS0 : List (View.Piece (Elt F) S1000x128 .f32)) (LS1 : List (View.Piece (Elt F) S1000x1 .f32)) : Prop :=
  ∀ (E : Set ℕ) (K : PUnit → sProp 𝕄),
    iprop(ins1 c arg2 arg3 arg4 arg5 arg6 arg7 x0 x1 x2 x3 x4 x5 ∗ P
        ∗ (iprop(ins1 c arg2 arg3 arg4 arg5 arg6 arg7 x0 x1 x2 x3 x4 x5 ∗ Q
            ∗ (∃ f, arg9.view.loc (c : Thread nD τ) ↦[arg9.view.set]{fullShare} arg9.view.writes (Elt F) f LS0)
            ∗ (∃ f, arg10.view.loc (c : Thread nD τ) ↦[arg10.view.set]{fullShare} arg10.view.writes (Elt F) f LS1)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9 arg10 harg10) K

noncomputable def kernelRun1_A (hc0 : cond1_0 i) (hc1 : ¬cond1_1 i) :
    Σ' (L6 : List (View.Piece (Elt F) S1000x128 .f32)) (LS0 : List (View.Piece (Elt F) S1000x128 .f32)), { LS1 : List (View.Piece (Elt F) S1000x1 .f32) //
      ∀ xi6 : Vec F S1000x128 .f32, Run1 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ (∃ d, owns (c : Thread nD τ) arg9 fullShare d) ∗ (∃ d, owns (c : Thread nD τ) arg10 fullShare d))
        (owns (c : Thread nD τ) arg8 fullShare xi6) LS0 LS1 } := by
  refine ⟨[], ?_, ?_, fun xi6 E K => ?run⟩
  case run =>
    simp only [cc1__sage_kernel_eq_skeleton]; unfold cc1__sage_kernel_skel
    simp only [k1_part1_eq_skeleton]
    unfold ins1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%ds0, %fs0, -, HS0⟩, ⟨%ds1, %fs1, -, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun1_B (hc0 : ¬cond1_0 i) (hc1 : ¬cond1_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      ∀ xi6 : Vec F S1000x128 .f32, Run1 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ owns (c : Thread nD τ) arg9 fullShare xs0 ∗ owns (c : Thread nD τ) arg10 fullShare xs1)
        (owns (c : Thread nD τ) arg8 fullShare xi6) LS0 LS1 } := by
  refine ⟨[], ?_, ?_, fun xi6 E K => ?run⟩
  case run =>
    simp only [cc1__sage_kernel_eq_skeleton]; unfold cc1__sage_kernel_skel
    simp only [k1_part1_eq_skeleton]
    unfold ins1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun1_C (hc0 : ¬cond1_0 i) (hc1 : cond1_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      Run1 c i arg2 harg2 arg3 harg3 arg4 harg4 arg5 harg5 arg6 harg6 arg7 harg7 arg8 harg8 arg9 harg9 arg10 harg10 x0 x1 x2 x3 x4 x5
        iprop((∃ d, owns (c : Thread nD τ) arg8 fullShare d) ∗ owns (c : Thread nD τ) arg9 fullShare xs0 ∗ owns (c : Thread nD τ) arg10 fullShare xs1)
        iprop(∃ f, arg8.view.loc (c : Thread nD τ) ↦[arg8.view.set]{fullShare} arg8.view.writes (Elt F) f L6) LS0 LS1 } := by
  refine ⟨?_, ?_, ?_, fun E K => ?run⟩
  case run =>
    simp only [cc1__sage_kernel_eq_skeleton]; unfold cc1__sage_kernel_skel
    simp only [k1_part1_eq_skeleton]
    unfold ins1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%d6, %f6, -, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iexists _; iexact H6
    isplitl [HS0]; · iexists _; iexact HS0
    iexists _; iexact HS1

end Cert.Kernel.Frame

end
-- ==== Proof.K.Sage1Frame.lean ====
import proofs.«418495_j25864293056532_3_alg».proof.Proof.K.Sage1Run

noncomputable section

namespace Cert.Kernel.Frame

open Cert.Kernel.Gen
open Idealize.ShloMosaic Idealize.ShloMosaic.TcCoe
open Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

section
variable (hc0 : cond1_0 (grid1.coords t)) (hc1 : ¬cond1_1 (grid1.coords t))
abbrev run1_A := kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) hc0 hc1

def out1_A_6 : Vec F S1000x128 .f32 :=
  VO1_6.read (Elt F) (VO1_6.writes (Elt F) VO1_6.junk (run1_A V c t hc0 hc1).1)
theorem scover1_A_0 (y : S1000x128.Idx) : ∃ pc ∈ (run1_A V c t hc0 hc1).2.1, y ∈ pc.1.set :=
  View.cover_of_tiledL _ S1000x128.size (by sl_kernel_rfl) y
def sout1_A_0 : Vec F S1000x128 .f32 :=
  VS1_0.read (Elt F) (VS1_0.writes (Elt F) VS1_0.junk (run1_A V c t hc0 hc1).2.1)
theorem scover1_A_1 (y : S1000x1.Idx) : ∃ pc ∈ (run1_A V c t hc0 hc1).2.2.1, y ∈ pc.1.set :=
  View.cover_of_tiledL _ S1000x1.size (by sl_kernel_rfl) y
def sout1_A_1 : Vec F S1000x1 .f32 :=
  VS1_1.read (Elt F) (VS1_1.writes (Elt F) VS1_1.junk (run1_A V c t hc0 hc1).2.2.1)
end

section
variable (hc0 : ¬cond1_0 (grid1.coords t)) (hc1 : ¬cond1_1 (grid1.coords t)) (xs0 : Vec F S1000x128 .f32) (xs1 : Vec F S1000x1 .f32)
abbrev run1_B := kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) hc0 hc1 xs0 xs1

def out1_B_6 : Vec F S1000x128 .f32 :=
  VO1_6.read (Elt F) (VO1_6.writes (Elt F) VO1_6.junk (run1_B V c t hc0 hc1 xs0 xs1).1)
theorem scover1_B_0 (y : S1000x128.Idx) : ∃ pc ∈ (run1_B V c t hc0 hc1 xs0 xs1).2.1, y ∈ pc.1.set :=
  View.cover_of_tiledL _ S1000x128.size (by sl_kernel_rfl) y
def sout1_B_0 : Vec F S1000x128 .f32 :=
  VS1_0.read (Elt F) (VS1_0.writes (Elt F) VS1_0.junk (run1_B V c t hc0 hc1 xs0 xs1).2.1)
theorem scover1_B_1 (y : S1000x1.Idx) : ∃ pc ∈ (run1_B V c t hc0 hc1 xs0 xs1).2.2.1, y ∈ pc.1.set :=
  View.cover_of_tiledL _ S1000x1.size (by sl_kernel_rfl) y
def sout1_B_1 : Vec F S1000x1 .f32 :=
  VS1_1.read (Elt F) (VS1_1.writes (Elt F) VS1_1.junk (run1_B V c t hc0 hc1 xs0 xs1).2.2.1)
end

section
variable (hc0 : ¬cond1_0 (grid1.coords t)) (hc1 : cond1_1 (grid1.coords t)) (xs0 : Vec F S1000x128 .f32) (xs1 : Vec F S1000x1 .f32)
abbrev run1_C := kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) hc0 hc1 xs0 xs1

def out1_C_6 : Vec F S1000x128 .f32 :=
  VO1_6.read (Elt F) (VO1_6.writes (Elt F) VO1_6.junk (run1_C V c t hc0 hc1 xs0 xs1).1)
theorem cover1_C_6 (y : S1000x128.Idx) : ∃ pc ∈ (run1_C V c t hc0 hc1 xs0 xs1).1, y ∈ pc.1.set :=
  View.cover_of_tiledL _ S1000x128.size (by sl_kernel_rfl) y
theorem scover1_C_0 (y : S1000x128.Idx) : ∃ pc ∈ (run1_C V c t hc0 hc1 xs0 xs1).2.1, y ∈ pc.1.set :=
  View.cover_of_tiledL _ S1000x128.size (by sl_kernel_rfl) y
def sout1_C_0 : Vec F S1000x128 .f32 :=
  VS1_0.read (Elt F) (VS1_0.writes (Elt F) VS1_0.junk (run1_C V c t hc0 hc1 xs0 xs1).2.1)
theorem scover1_C_1 (y : S1000x1.Idx) : ∃ pc ∈ (run1_C V c t hc0 hc1 xs0 xs1).2.2.1, y ∈ pc.1.set :=
  View.cover_of_tiledL _ S1000x1.size (by sl_kernel_rfl) y
def sout1_C_1 : Vec F S1000x1 .f32 :=
  VS1_1.read (Elt F) (VS1_1.writes (Elt F) VS1_1.junk (run1_C V c t hc0 hc1 xs0 xs1).2.2.1)
end

def step1_A (h0 : t.val % 250 = 0) (h1 : ¬t.val % 250 = 249) : Vec F S1000x128 .f32 × Vec F S1000x128 .f32 × Vec F S1000x1 .f32 :=
  (out1_A_6 V c t ((hcond1_0 t).mpr h0) (fun h => h1 ((hcond1_1 t).mp h)), sout1_A_0 V c t ((hcond1_0 t).mpr h0) (fun h => h1 ((hcond1_1 t).mp h)), sout1_A_1 V c t ((hcond1_0 t).mpr h0) (fun h => h1 ((hcond1_1 t).mp h)))
def step1_B (h0 : ¬t.val % 250 = 0) (h1 : ¬t.val % 250 = 249) (xs0 : Vec F S1000x128 .f32) (xs1 : Vec F S1000x1 .f32) : Vec F S1000x128 .f32 × Vec F S1000x128 .f32 × Vec F S1000x1 .f32 :=
  (out1_B_6 V c t (fun h => h0 ((hcond1_0 t).mp h)) (fun h => h1 ((hcond1_1 t).mp h)) xs0 xs1, sout1_B_0 V c t (fun h => h0 ((hcond1_0 t).mp h)) (fun h => h1 ((hcond1_1 t).mp h)) xs0 xs1, sout1_B_1 V c t (fun h => h0 ((hcond1_0 t).mp h)) (fun h => h1 ((hcond1_1 t).mp h)) xs0 xs1)
def step1_C (h0 : ¬t.val % 250 = 0) (h1 : t.val % 250 = 249) (xs0 : Vec F S1000x128 .f32) (xs1 : Vec F S1000x1 .f32) : Vec F S1000x128 .f32 × Vec F S1000x128 .f32 × Vec F S1000x1 .f32 :=
  (out1_C_6 V c t (fun h => h0 ((hcond1_0 t).mp h)) ((hcond1_1 t).mpr h1) xs0 xs1, sout1_C_0 V c t (fun h => h0 ((hcond1_0 t).mp h)) ((hcond1_1 t).mpr h1) xs0 xs1, sout1_C_1 V c t (fun h => h0 ((hcond1_0 t).mp h)) ((hcond1_1 t).mpr h1) xs0 xs1)

def outsAt1 : (n : ℕ) → n < cfg1.N → Vec F S1000x128 .f32 × Vec F S1000x128 .f32 × Vec F S1000x1 .f32
  | 0, hn => step1_A V c ⟨0, hn⟩ (Nat.zero_mod _) (show ¬ (0 % 250 = 249) by decide)
  | n + 1, hn =>
    if h0 : (n + 1) % 250 = 0 then
      if h1 : (n + 1) % 250 = 249 then False.elim (by omega)
      else step1_A V c ⟨n + 1, hn⟩ h0 h1
    else
      if h1 : (n + 1) % 250 = 249 then
        step1_C V c ⟨n + 1, hn⟩ h0 h1 (outsAt1 n (Nat.lt_of_succ_lt hn)).2.1 (outsAt1 n (Nat.lt_of_succ_lt hn)).2.2
      else
        step1_B V c ⟨n + 1, hn⟩ h0 h1 (outsAt1 n (Nat.lt_of_succ_lt hn)).2.1 (outsAt1 n (Nat.lt_of_succ_lt hn)).2.2

theorem outsAt1_A (h0 : t.val % 250 = 0) (h1 : ¬t.val % 250 = 249) : outsAt1 V c t.val t.isLt = step1_A V c t h0 h1 := by
  obtain ⟨n, hn⟩ := t
  cases n with
  | zero => rfl
  | succ n => exact (dif_pos h0).trans ((dif_neg h1).trans rfl)

theorem outsAt1_B (h0 : ¬t.val % 250 = 0) (h1 : ¬t.val % 250 = 249) :
    outsAt1 V c t.val t.isLt = step1_B V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (h0 : ¬t.val % 250 = 0) (h1 : t.val % 250 = 249) :
    outsAt1 V c t.val t.isLt = step1_C V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

def PhiAt1 (a : Vec F S1000x128 .f32) (b : Vec F S1000x1 .f32) : sProp 𝕄 :=
  iprop(iprop(iprop(owns (c : Thread nD τ) scM1_0 fullShare a ∗ owns (c : Thread nD τ) scM1_1 fullShare b)
      ∗ Pipeline.scopedRestBut (Ix := Unit) (Name := ℕ) (U := UR sig nD τ) (Lvl := ℕ) (Val := Elt F) spec1 c [cc1_scratch0, cc1_scratch1]) ∗ (∃ r, prngReg c r))

/-- Between points the accumulators are held at what the point before left in them; before the first point, at anything. -/
def PhiS1 : (n : ℕ) → n ≤ cfg1.N → sProp 𝕄
  | 0, _ => Pipeline.ΦA spec1 c
  | n + 1, hn => PhiAt1 c (outsAt1 V c n hn).2.1 (outsAt1 V c n hn).2.2

theorem PhiS1_pos (n : ℕ) (h : n ≤ cfg1.N) (hz : n ≠ 0) :
    PhiS1 V c n h = PhiAt1 c (outsAt1 V c (n - 1) (by omega)).2.1 (outsAt1 V c (n - 1) (by omega)).2.2 := by
  cases n with
  | zero => exact absurd rfl hz
  | succ n => rfl

/-- Forgetting what the accumulators hold gives the region's plain invariant back. -/
theorem PhiS1_any (n : ℕ) (h : n ≤ cfg1.N) : PhiS1 V c n h ⊢ Pipeline.ΦA spec1 c := by
  cases n with
  | zero => exact .rfl
  | succ n =>
    rw [PhiA1_eq]; unfold PhiS1 PhiAt1
    iintro ⟨⟨⟨HS0, HS1⟩, $⟩, $⟩
    isplitl [HS0] <;> iexists _ <;> iassumption

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl

theorem after1_0 : (dat1 V c).after 0 t = iblk1 V c 0 t := rfl
theorem after1_1 : (dat1 V c).after 1 t = iblk1 V c 1 t := rfl
theorem after1_2 : (dat1 V c).after 2 t = iblk1 V c 2 t := rfl
theorem after1_3 : (dat1 V c).after 3 t = iblk1 V c 3 t := rfl
theorem after1_4 : (dat1 V c).after 4 t = iblk1 V c 4 t := rfl
theorem after1_5 : (dat1 V c).after 5 t = iblk1 V c 5 t := rfl
theorem after1_6 : (dat1 V c).after 6 t = (outsAt1 V c t.val t.isLt).1 := rfl

theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl
theorem before1_3 (d) : (dat1 V c).before 3 t d = iblk1 V c 3 t :=
  ((dat1 V c).before_in_eq_fetched 3 rfl (fun _ => rfl) (fun _ _ _ => rfl) (fun _ => rfl) t d).trans rfl
theorem before1_4 (d) : (dat1 V c).before 4 t d = iblk1 V c 4 t :=
  ((dat1 V c).before_in_eq_fetched 4 rfl (fun _ => rfl) (fun _ _ _ => rfl) (fun _ => rfl) t d).trans rfl
theorem before1_5 (d) : (dat1 V c).before 5 t d = iblk1 V c 5 t :=
  ((dat1 V c).before_in_eq_fetched 5 rfl (fun _ => rfl) (fun _ _ _ => rfl) (fun _ => rfl) t d).trans rfl

/-- By cases on the point's place in its node block; the totals pass from each point to the next through the invariant. -/
theorem sound_body1 :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t
        ∗ (dat1 V c).leavesExact 4 t ∗ (dat1 V c).leavesExact 5 t ∗ (dat1 V c).leavesExact 6 t)) := by
  unfold bodyAt1
  simp only [before1_0, before1_1, before1_2, before1_3, before1_4, before1_5]
  rw [show (dat1 V c).owesAt () t.succ = (dat1 V c).owesAt () t.castSucc from rfl,
    show (dat1 V c).Φ t.succ = PhiAt1 c (outsAt1 V c t.val t.isLt).2.1 (outsAt1 V c t.val t.isLt).2.2 from rfl,
    show (dat1 V c).Φ t.castSucc = PhiS1 V c t.val (Nat.le_of_lt t.isLt) from rfl,
    (dat1 V c).leavesExact_live 0 t (live1 0 t (by decide)), (dat1 V c).leavesExact_live 1 t (live1 1 t (by decide)), (dat1 V c).leavesExact_live 2 t (live1 2 t (by decide)), (dat1 V c).leavesExact_live 3 t (live1 3 t (by decide)), (dat1 V c).leavesExact_live 4 t (live1 4 t (by decide)), (dat1 V c).leavesExact_live 5 t (live1 5 t (by decide)),
    after1_0, after1_1, after1_2, after1_3, after1_4, after1_5]
  by_cases h0 : t.val % 250 = 0
  · have h1 : ¬t.val % 250 = 249 := by omega
    have hc1 : ¬cond1_1 (grid1.coords t) := fun h => h1 ((hcond1_1 t).mp h)
    rw [Dat.leavesExact_idle (dat1 V c) 6 t (idleAt1_6 t hc1) (noFlush1_6 t hc1), outsAt1_A V c t h0 h1]
    unfold step1_A sout1_A_0 sout1_A_1; dsimp only
    refine (sep_mono (PhiS1_any V c _ _) .rfl).trans ?_
    rw [PhiA1_eq]; unfold PhiAt1
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((run1_A V c t ((hcond1_0 t).mpr h0) hc1).2.2.2 _ Set.univ _)
    unfold ins1
    iframe
    iintro ⟨⟨H0, H1, H2, H3, H4, H5⟩, H6, HS0, HS1⟩
    iframe
    isplitl [HS0 HS1]
    · isplitl [HS0]; · iapply owns_writes _ _ _ _ _ _ (scover1_A_0 V c t _ _); iexact HS0
      iapply owns_writes _ _ _ _ _ _ (scover1_A_1 V c t _ _); iexact HS1
    iexists _; iexact H6
  · have hc0 : ¬cond1_0 (grid1.coords t) := fun h => h0 ((hcond1_0 t).mp h)
    rw [PhiS1_pos V c _ _ fun hz => h0 (by rw [hz])]; unfold PhiAt1
    by_cases h1 : t.val % 250 = 249
    · rw [(dat1 V c).leavesExact_live 6 t (liveAt1_6 t ((hcond1_1 t).mpr h1)), after1_6, outsAt1_C V c t h0 h1]
      unfold step1_C out1_C_6 sout1_C_0 sout1_C_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_C V c t hc0 ((hcond1_1 t).mpr h1) _ _).2.2.2 Set.univ _)
      unfold ins1
      iframe
      isplitl [H6]; · iexists _; iexact H6
      iintro ⟨⟨H0, H1, H2, H3, H4, H5⟩, H6, HS0, HS1⟩
      iframe
      isplitl [HS0 HS1]
      · isplitl [HS0]; · iapply owns_writes _ _ _ _ _ _ (scover1_C_0 V c t _ _ _ _); iexact HS0
        iapply owns_writes _ _ _ _ _ _ (scover1_C_1 V c t _ _ _ _); iexact HS1
      iapply owns_writes _ _ _ _ _ _ (cover1_C_6 V c t _ _ _ _); iexact H6
    · have hc1 : ¬cond1_1 (grid1.coords t) := fun h => h1 ((hcond1_1 t).mp h)
      rw [Dat.leavesExact_idle (dat1 V c) 6 t (idleAt1_6 t hc1) (noFlush1_6 t hc1), outsAt1_B V c t h0 h1]
      unfold step1_B sout1_B_0 sout1_B_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_B V c t hc0 hc1 _ _).2.2.2 _ Set.univ _)
      unfold ins1
      iframe
      iintro ⟨⟨H0, H1, H2, H3, H4, H5⟩, H6, HS0, HS1⟩
      iframe
      isplitl [HS0 HS1]
      · isplitl [HS0]; · iapply owns_writes _ _ _ _ _ _ (scover1_B_0 V c t _ _ _ _); iexact HS0
        iapply owns_writes _ _ _ _ _ _ (scover1_B_1 V c t _ _ _ _); iexact HS1
      iexists _; iexact H6

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem Phi_any1 (t : Fin (cfg1.N + 1)) : (dat1 V c).Φ t ⊢ Pipeline.ΦA spec1 c := PhiS1_any V c t.val _

theorem hout1 : (dat1 V c).Φ (Fin.last cfg1.N) ⊢ Pipeline.ΦA spec1 c := Phi_any1 V c _

end Cert.Kernel.Frame

end
-- ==== Proof.K.Clf2.lean ====
import proofs.«418495_j25864293056532_3_alg».proof.Proof.Gen.Kernel.Launch
import proofs.«418495_j25864293056532_3_alg».proof.Proof.Gen.Kernel.Skeleton
import proofs.«418495_j25864293056532_3_alg».proof.Proof.Gen.Kernel.Points
import proofs.«418495_j25864293056532_3_alg».proof.Proof.LibOwns
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel.Gen
open Idealize.ShloMosaic Idealize.ShloMosaic.TcCoe
open Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1000x128 := Rect.unit (s := S1000x128) ![0, 0] S1000x128.size inb_S1000x128_S1000x128_0_0
abbrev r2_1 : Rect S128x40 := Rect.unit (s := S128x40) ![0, 0] S128x40.size inb_S128x40_S128x40_0_0
abbrev r2_2 : Rect S1x40 := Rect.unit (s := S1x40) ![0, 0] S1x40.size inb_S1x40_S1x40_0_0
abbrev r2_3 : Rect S1000x40 := Rect.unit (s := S1000x40) ![0, 0] S1000x40.size inb_S1000x40_S1000x40_0_0

def out2_3 (x0 : Vec F S1000x128 .f32) (x1 : Vec F S128x40 .f32) (x2 : Vec F S1x40 .f32) : Vec F S1000x40 .f32 :=
  View.canon [⟨r2_3, k2_pay1 (View.ld x0 r2_0) (View.ld x1 r2_1) (View.ld x2 r2_2)⟩]

theorem cover2_3 (p0 : Vec F S1000x40 .f32) (y : S1000x40.Idx) :
    ∃ pc ∈ ([⟨r2_3, p0⟩] : List (View.Piece (Elt F) S1000x40 .f32)), y ∈ pc.1.set :=
  View.cover_of_tiled [⟨r2_3, p0⟩] S1000x40.size (by rfl) y

theorem sound_kernel2 (c : Dev nD) (E : Set ℕ) (i : grid2.Coords) (arg1 : Memref sig .tc .vmem S1000x128 .f32) (harg1 : arg1.IsWhole)
    (arg2 : Memref sig .tc .vmem S128x40 .f32) (harg2 : arg2.IsWhole) (arg3 : Memref sig .tc .vmem S1x40 .f32) (harg3 : arg3.IsWhole)
    (arg4 : Memref sig .tc .vmem S1000x40 .f32) (harg4 : arg4.IsWhole)
    (x0 : Vec F S1000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__clf_kernel i arg1 harg1 arg2 harg2 arg3 harg3 arg4 harg4) K := by
  simp only [cc2__clf_kernel_eq_skeleton]; unfold cc2__clf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    show (dat2 V c).after 0 t = iblk2 V c 0 t by dsimp only [dat2], show (dat2 V c).after 1 t = iblk2 V c 1 t by dsimp only [dat2],
    show (dat2 V c).after 2 t = iblk2 V c 2 t by dsimp only [dat2], after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl; · iexists _; iexact H3
  iintro H; iexact H

theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Run.lean ====
import proofs.«418495_j25864293056532_3_alg».proof.Proof.K.Sage0Frame
import proofs.«418495_j25864293056532_3_alg».proof.Proof.K.Sage1Frame
import proofs.«418495_j25864293056532_3_alg».proof.Proof.K.Clf2
import proofs.«418495_j25864293056532_3_alg».proof.Proof.Gen.Kernel.Regions
import Idealize.ShloMosaic.Lib.Pipeline.RegionsLoop
import Idealize.ShloMosaic.Lib.Pipeline.FrameSuffix

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- By cases on whether `b` is some window's array: if it is, that window is an input's, whose array ends as entered. -/
theorem keep {p : Fin 3} (lf : Pipeline.LaunchFacts (nD := nD) (τ := τ) cfgs p) {c : Dev nD} {W : Valuation τ sig (Elt F)}
    {d : Dat τ (Elt F) Unit ℕ (UR sig nD τ) ℕ (cfgs p) c} (hA : ∀ w, d.A w = W (Proc.devRef .tc (Pipeline.arrRef (cfgs p).spec w)))
    (b : Ref sig .tc) (h : ∀ w, Pipeline.arrRef (cfgs p).spec w = b → ((cfgs p).win w).isOut = false) :
    Pipeline.withArrays (cfgs p).spec c W (fun w => d.arrAt w (cfgs p).N) (Proc.devRef .tc b) = W (Proc.devRef .tc b) := by
  by_cases hb : ∃ w, Pipeline.arrRef (cfgs p).spec w = b
  · obtain ⟨w, rfl⟩ := hb
    exact (Pipeline.withArrays_arr _ lf.win.arr_inj c _ _ w).trans ((d.arrAt_in w (h w rfl) _).trans (hA w))
  · exact Pipeline.withArrays_of_ne _ c _ _ b fun w e => hb ⟨w, e⟩

/-- Six steps back from the last boundary to the launch, each leaving `b` as it finds it. -/
theorem W6_keep (c : Dev nD) (b : Ref sig .tc)
    (h : (b ∉ hostOps0_W ∧ b ∉ hostOps1_W ∧ b ∉ hostOps2_W)
      ∧ ∀ (p : Fin 3) (w : Fin (cfgs p).W), Pipeline.arrRef (cfgs p).spec w = b → ((cfgs p).win w).isOut = false) :
    W6 m ρ c (Proc.devRef .tc b) = m ((c : Thread nD τ).loc b) :=
  (keep launch2 (A_eq2 (V5 m ρ) c) b (h.2 2)).trans <| (W5_of m ρ c b h.1.2.2).trans <|
  (keep launch1 (A_eq1 (V3 m ρ) c) b (h.2 1)).trans <| (W3_of m ρ c b h.1.2.1).trans <|
  (keep launch0 (A_eq0 (V1 m ρ) c) b (h.2 0)).trans <| W1_of m ρ c b h.1.1

theorem W6_main_v24 (c : Dev nD) : W6 m ρ c (Proc.devRef .tc main_v24) = (dat2 (V5 m ρ) c).arrAt 3 cfg2.N :=
  Pipeline.withArrays_arr spec2 launch2.win.arr_inj c _ _ 3

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev T (W : Dev nD → Valuation τ sig (Elt F)) (c : Dev nD) : sProp 𝕄 :=
  iprop(StableHlo.held (c : Thread nD τ) (Pipeline.ucRefs τ sig) (W c) ∗ R c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One record for the three regions: they differ in the index, the entry contents and the facts of the body alone. -/
def reg (p : Fin 3) (lf : Pipeline.LaunchFacts (nD := nD) (τ := τ) cfgs p) (W : Dev nD → Valuation τ sig (Elt F))
    (hA : ∀ c w, (pdats m ρ p c).A w = W c (Proc.devRef .tc (Pipeline.arrRef (cfgs p).spec w)))
    (hq : ∀ c w, (pdats m ρ p c).q w = fullShare) (h0 : ∀ c t, (pdats m ρ p c).owed t = 0 ∧ (pdats m ρ p c).recorded t = Set.univ)
    (hb : ∀ c, BodyObligation (pdats m ρ p c) (defs₀ (F := F)) Variants.none () Set.univ)
    (hi : ∀ c, Pipeline.ΦA (cfgs p).spec c ⊢ (pdats m ρ p c).Φ 0)
    (ho : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => (h0 c t).1
  pre := T W
  post := T fun c => Pipeline.withArrays (cfgs p).spec c (W c) fun w => (pdats m ρ p c).arrAt w (cfgs p).N
  X c := iprop(∃ r, prngReg c r)
  Y c := iprop(∃ r, prngReg c r)
  Z c := Pipeline.unscopedRest (cfgs p).spec c fun b => W c b
  hentry c := by
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [(h0 c 0).1, (h0 c 0).2]
    icases HO with ⟨%W, HO⟩; iexists W; iframe
    ipureintro; exact fun _ _ => Or.inl trivial
  hin c := by
    refine .trans ?_ (hi c)
    unfold Pipeline.ΦA
    iintro ⟨Hp, -, Hr⟩
    iframe
  hout c := by
    refine (ho c).trans ?_
    rw [Pipeline.ownSems0_none]; unfold Pipeline.ΦA
    iintro ⟨Hr, Hp⟩
    iframe; iempintro
  hexit c := by
    have hjoin := Pipeline.unscopedBufs_of_arrays (p := p) (pcfgs (F := F)) adm
      lf.win lf.arr_whole c (pdats m ρ) ((pdats m ρ p c).share_full (hq c)) (fun b => W c b)
      (fun b => Pipeline.withArrays (cfgs p).spec c (W c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [(h0 c _).1]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (A_eq0 _) (fun _ _ => rfl) (fun _ _ => ⟨rfl, rfl⟩) (body_obligation0 _) (hin0 _) (hout0 _)),
    .host (hseg hostOps1 hostOps1_sub hostOps1_fresh (W2 m ρ)),
    .region (reg m ρ 1 launch1 (W3 m ρ) (A_eq1 _) (fun _ _ => rfl) (fun _ _ => ⟨rfl, rfl⟩) (body_obligation1 _) (hin1 _) (hout1 _)),
    .host (hseg hostOps2 hostOps2_sub hostOps2_fresh (W4 m ρ)),
    .region (reg m ρ 2 launch2 (W5 m ρ) (A_eq2 _) (fun _ _ => rfl) (fun _ _ => ⟨rfl, rfl⟩) (body_obligation2 _) (fun _ => .rfl) fun _ => .rfl) ]
theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro; iframe; iempintro)
    (T₀ := T (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      iframe)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    have k (b : Ref sig .tc) (hb : ¬ (Proc.devRef .tc b : DevRef τ sig).isScoped) hk :
        r.2.mem ((c.tc : Thread nD τ).loc b) = m ((c.tc : Thread nD τ).loc b) := (h c _ (mem_uc b hb)).trans (W6_keep m ρ c b hk)
    refine ⟨?_, ?_, ?_, ?_, ?_, ?_, ?_, ?_, ?_, ?_⟩ <;> exact k _ (by decide) (by decide)) (run_all m ρ)

end Cert.Kernel.Frame

end
-- ==== Proof.KI.Sage0Runs.lean ====
import proofs.«418495_j25864293056532_3_alg».proof.Proof.Gen.KernelIdeal.Launch
import proofs.«418495_j25864293056532_3_alg».proof.Proof.Gen.KernelIdeal.Skeleton
import proofs.«418495_j25864293056532_3_alg».proof.Proof.Gen.KernelIdeal.Points
import proofs.«418495_j25864293056532_3_alg».proof.Proof.LibOwns
import Idealize.ShloMosaic.Lib.Pipeline.FrameSuffix
import Idealize.ShloMosaic.Lib.Ring
import Idealize.ShloMosaic.Lib.Tactic

noncomputable section

namespace Cert.KernelIdeal.Frame

open Cert.KernelIdeal.Gen
open Idealize.ShloMosaic Idealize.ShloMosaic.TcCoe
open Idealize.SL.RA Idealize.SL.BI
open scoped Idealize.SL.BI
open Idealize.SL.BI.BIBase

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 250 = 0 :=
  (by decide +kernel : ∀ t : Fin grid0.N, cond0_0 (grid0.coords t) ↔ t.val % 250 = 0)

abbrev cond0_1 (i : grid0.Coords) : Prop := k0_cond2 i = 1#1
theorem hcond0_1 : ∀ t : Fin cfg0.N, cond0_1 (grid0.coords t) ↔ t.val % 250 = 249 :=
  (by decide +kernel : ∀ t : Fin grid0.N, cond0_1 (grid0.coords t) ↔ t.val % 250 = 249)

theorem live0 : ∀ (w : Fin cfg0.W) (t : Fin cfg0.N), w ≠ 6 → cfg0.idle w (grid0.coords t) = false := by decide +kernel

theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel

theorem liveAt0_6 : ∀ t : Fin cfg0.N, cond0_1 (grid0.coords t) → cfg0.idle 6 (grid0.coords t) = false := by decide +kernel

abbrev VO0_6 : View sig .tc .vmem S1000x128 .f32 := (Memref.whole cc0_stg6_0 : Memref sig .tc .vmem S1000x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2560 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1000x128 .f32 := win0_6.stage (cfg0.slots t 6)
abbrev hs0_6 (t : Fin cfg0.N) : (ms0_6 t).IsWhole := hstage0_6 ((cfg0.slots t 6).cast nbuf0_6)

abbrev scM0_0 : Memref sig .tc .vmem S1000x128 .f32 := Memref.whole cc0_scratch0
abbrev scM0_1 : Memref sig .tc .vmem S1000x1 .f32 := Memref.whole cc0_scratch1
abbrev VS0_0 : View sig .tc .vmem S1000x128 .f32 := scM0_0.view
abbrev VS0_1 : View sig .tc .vmem S1000x1 .f32 := scM0_1.view

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.KernelIdeal.Frame

end
-- ==== Proof.KI.Sage0Run.lean ====
import proofs.«418495_j25864293056532_3_alg».proof.Proof.KI.Sage0Runs

noncomputable section

namespace Cert.KernelIdeal.Frame

open Cert.KernelIdeal.Gen
open Idealize.ShloMosaic Idealize.ShloMosaic.TcCoe
open Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

variable (c : Dev nD) (i : grid0.Coords)
  (arg2 : Memref sig .tc .vmem S10000x128 .f32) (harg2 : arg2.IsWhole) (arg3 : Memref sig .tc .vmem S2560x128 .f32) (harg3 : arg3.IsWhole)
  (arg4 : Memref sig .tc .vmem S1x2560 .i32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S1x128 .f32) (harg7 : arg7.IsWhole)
  (arg8 : Memref sig .tc .vmem S1000x128 .f32) (harg8 : arg8.IsWhole) (arg9 : Memref sig .tc .vmem S1000x128 .f32) (harg9 : arg9.IsWhole)
  (arg10 : Memref sig .tc .vmem S1000x1 .f32) (harg10 : arg10.IsWhole)
  (x0 : Vec F S10000x128 .f32) (x1 : Vec F S2560x128 .f32) (x2 : Vec F S1x2560 .i32) (x3 : Vec F S128x128 .f32) (x4 : Vec F S128x128 .f32)
  (x5 : Vec F S1x128 .f32)

abbrev ins0 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- A run of the body from `P` to `Q`, the operands kept and the two totals written through the pieces `LS0`, `LS1`. -/
abbrev Run0 (P Q : sProp 𝕄) (LS0 : List (View.Piece (Elt F) S1000x128 .f32)) (LS1 : List (View.Piece (Elt F) S1000x1 .f32)) : Prop :=
  ∀ (E : Set ℕ) (K : PUnit → sProp 𝕄),
    iprop(ins0 c arg2 arg3 arg4 arg5 arg6 arg7 x0 x1 x2 x3 x4 x5 ∗ P
        ∗ (iprop(ins0 c arg2 arg3 arg4 arg5 arg6 arg7 x0 x1 x2 x3 x4 x5 ∗ Q
            ∗ (∃ f, arg9.view.loc (c : Thread nD τ) ↦[arg9.view.set]{fullShare} arg9.view.writes (Elt F) f LS0)
            ∗ (∃ f, arg10.view.loc (c : Thread nD τ) ↦[arg10.view.set]{fullShare} arg10.view.writes (Elt F) f LS1)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9 arg10 harg10) K

noncomputable def kernelRun0_A (hc0 : cond0_0 i) (hc1 : ¬cond0_1 i) :
    Σ' (L6 : List (View.Piece (Elt F) S1000x128 .f32)) (LS0 : List (View.Piece (Elt F) S1000x128 .f32)), { LS1 : List (View.Piece (Elt F) S1000x1 .f32) //
      ∀ xi6 : Vec F S1000x128 .f32, Run0 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ (∃ d, owns (c : Thread nD τ) arg9 fullShare d) ∗ (∃ d, owns (c : Thread nD τ) arg10 fullShare d))
        (owns (c : Thread nD τ) arg8 fullShare xi6) LS0 LS1 } := by
  refine ⟨[], ?_, ?_, fun xi6 E K => ?run⟩
  case run =>
    simp only [cc0__sage_kernel_eq_skeleton]; unfold cc0__sage_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%ds0, %fs0, -, HS0⟩, ⟨%ds1, %fs1, -, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun0_B (hc0 : ¬cond0_0 i) (hc1 : ¬cond0_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      ∀ xi6 : Vec F S1000x128 .f32, Run0 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ owns (c : Thread nD τ) arg9 fullShare xs0 ∗ owns (c : Thread nD τ) arg10 fullShare xs1)
        (owns (c : Thread nD τ) arg8 fullShare xi6) LS0 LS1 } := by
  refine ⟨[], ?_, ?_, fun xi6 E K => ?run⟩
  case run =>
    simp only [cc0__sage_kernel_eq_skeleton]; unfold cc0__sage_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun0_C (hc0 : ¬cond0_0 i) (hc1 : cond0_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      Run0 c i arg2 harg2 arg3 harg3 arg4 harg4 arg5 harg5 arg6 harg6 arg7 harg7 arg8 harg8 arg9 harg9 arg10 harg10 x0 x1 x2 x3 x4 x5
        iprop((∃ d, owns (c : Thread nD τ) arg8 fullShare d) ∗ owns (c : Thread nD τ) arg9 fullShare xs0 ∗ owns (c : Thread nD τ) arg10 fullShare xs1)
        iprop(∃ f, arg8.view.loc (c : Thread nD τ) ↦[arg8.view.set]{fullShare} arg8.view.writes (Elt F) f L6) LS0 LS1 } := by
  refine ⟨?_, ?_, ?_, fun E K => ?run⟩
  case run =>
    simp only [cc0__sage_kernel_eq_skeleton]; unfold cc0__sage_kernel_skel
    simp only [k0_part1_eq_skeleton]
    unfold ins0 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%d6, %f6, -, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iexists _; iexact H6
    isplitl [HS0]; · iexists _; iexact HS0
    iexists _; iexact HS1

end Cert.KernelIdeal.Frame

end
-- ==== Proof.KI.Sage0Frame.lean ====
import proofs.«418495_j25864293056532_3_alg».proof.Proof.KI.Sage0Run

noncomputable section

namespace Cert.KernelIdeal.Frame

open Cert.KernelIdeal.Gen
open Idealize.ShloMosaic Idealize.ShloMosaic.TcCoe
open Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg0.N)

section
variable (hc0 : cond0_0 (grid0.coords t)) (hc1 : ¬cond0_1 (grid0.coords t))
abbrev run0_A := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk0 V c 0 t) (iblk0 V c 1 t) (iblk0 V c 2 t) (iblk0 V c 3 t) (iblk0 V c 4 t) (iblk0 V c 5 t) hc0 hc1

def out0_A_6 : Vec F S1000x128 .f32 :=
  VO0_6.read (Elt F) (VO0_6.writes (Elt F) VO0_6.junk (run0_A V c t hc0 hc1).1)
theorem scover0_A_0 (y : S1000x128.Idx) : ∃ pc ∈ (run0_A V c t hc0 hc1).2.1, y ∈ pc.1.set :=
  View.cover_of_tiledL _ S1000x128.size (by sl_kernel_rfl) y
def sout0_A_0 : Vec F S1000x128 .f32 :=
  VS0_0.read (Elt F) (VS0_0.writes (Elt F) VS0_0.junk (run0_A V c t hc0 hc1).2.1)
theorem scover0_A_1 (y : S1000x1.Idx) : ∃ pc ∈ (run0_A V c t hc0 hc1).2.2.1, y ∈ pc.1.set :=
  View.cover_of_tiledL _ S1000x1.size (by sl_kernel_rfl) y
def sout0_A_1 : Vec F S1000x1 .f32 :=
  VS0_1.read (Elt F) (VS0_1.writes (Elt F) VS0_1.junk (run0_A V c t hc0 hc1).2.2.1)
end

section
variable (hc0 : ¬cond0_0 (grid0.coords t)) (hc1 : ¬cond0_1 (grid0.coords t)) (xs0 : Vec F S1000x128 .f32) (xs1 : Vec F S1000x1 .f32)
abbrev run0_B := kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk0 V c 0 t) (iblk0 V c 1 t) (iblk0 V c 2 t) (iblk0 V c 3 t) (iblk0 V c 4 t) (iblk0 V c 5 t) hc0 hc1 xs0 xs1

def out0_B_6 : Vec F S1000x128 .f32 :=
  VO0_6.read (Elt F) (VO0_6.writes (Elt F) VO0_6.junk (run0_B V c t hc0 hc1 xs0 xs1).1)
theorem scover0_B_0 (y : S1000x128.Idx) : ∃ pc ∈ (run0_B V c t hc0 hc1 xs0 xs1).2.1, y ∈ pc.1.set :=
  View.cover_of_tiledL _ S1000x128.size (by sl_kernel_rfl) y
def sout0_B_0 : Vec F S1000x128 .f32 :=
  VS0_0.read (Elt F) (VS0_0.writes (Elt F) VS0_0.junk (run0_B V c t hc0 hc1 xs0 xs1).2.1)
theorem scover0_B_1 (y : S1000x1.Idx) : ∃ pc ∈ (run0_B V c t hc0 hc1 xs0 xs1).2.2.1, y ∈ pc.1.set :=
  View.cover_of_tiledL _ S1000x1.size (by sl_kernel_rfl) y
def sout0_B_1 : Vec F S1000x1 .f32 :=
  VS0_1.read (Elt F) (VS0_1.writes (Elt F) VS0_1.junk (run0_B V c t hc0 hc1 xs0 xs1).2.2.1)
end

section
variable (hc0 : ¬cond0_0 (grid0.coords t)) (hc1 : cond0_1 (grid0.coords t)) (xs0 : Vec F S1000x128 .f32) (xs1 : Vec F S1000x1 .f32)
abbrev run0_C := kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk0 V c 0 t) (iblk0 V c 1 t) (iblk0 V c 2 t) (iblk0 V c 3 t) (iblk0 V c 4 t) (iblk0 V c 5 t) hc0 hc1 xs0 xs1

def out0_C_6 : Vec F S1000x128 .f32 :=
  VO0_6.read (Elt F) (VO0_6.writes (Elt F) VO0_6.junk (run0_C V c t hc0 hc1 xs0 xs1).1)
theorem cover0_C_6 (y : S1000x128.Idx) : ∃ pc ∈ (run0_C V c t hc0 hc1 xs0 xs1).1, y ∈ pc.1.set :=
  View.cover_of_tiledL _ S1000x128.size (by sl_kernel_rfl) y
theorem scover0_C_0 (y : S1000x128.Idx) : ∃ pc ∈ (run0_C V c t hc0 hc1 xs0 xs1).2.1, y ∈ pc.1.set :=
  View.cover_of_tiledL _ S1000x128.size (by sl_kernel_rfl) y
def sout0_C_0 : Vec F S1000x128 .f32 :=
  VS0_0.read (Elt F) (VS0_0.writes (Elt F) VS0_0.junk (run0_C V c t hc0 hc1 xs0 xs1).2.1)
theorem scover0_C_1 (y : S1000x1.Idx) : ∃ pc ∈ (run0_C V c t hc0 hc1 xs0 xs1).2.2.1, y ∈ pc.1.set :=
  View.cover_of_tiledL _ S1000x1.size (by sl_kernel_rfl) y
def sout0_C_1 : Vec F S1000x1 .f32 :=
  VS0_1.read (Elt F) (VS0_1.writes (Elt F) VS0_1.junk (run0_C V c t hc0 hc1 xs0 xs1).2.2.1)
end

def step0_A (h0 : t.val % 250 = 0) (h1 : ¬t.val % 250 = 249) : Vec F S1000x128 .f32 × Vec F S1000x128 .f32 × Vec F S1000x1 .f32 :=
  (out0_A_6 V c t ((hcond0_0 t).mpr h0) (fun h => h1 ((hcond0_1 t).mp h)), sout0_A_0 V c t ((hcond0_0 t).mpr h0) (fun h => h1 ((hcond0_1 t).mp h)), sout0_A_1 V c t ((hcond0_0 t).mpr h0) (fun h => h1 ((hcond0_1 t).mp h)))
def step0_B (h0 : ¬t.val % 250 = 0) (h1 : ¬t.val % 250 = 249) (xs0 : Vec F S1000x128 .f32) (xs1 : Vec F S1000x1 .f32) : Vec F S1000x128 .f32 × Vec F S1000x128 .f32 × Vec F S1000x1 .f32 :=
  (out0_B_6 V c t (fun h => h0 ((hcond0_0 t).mp h)) (fun h => h1 ((hcond0_1 t).mp h)) xs0 xs1, sout0_B_0 V c t (fun h => h0 ((hcond0_0 t).mp h)) (fun h => h1 ((hcond0_1 t).mp h)) xs0 xs1, sout0_B_1 V c t (fun h => h0 ((hcond0_0 t).mp h)) (fun h => h1 ((hcond0_1 t).mp h)) xs0 xs1)
def step0_C (h0 : ¬t.val % 250 = 0) (h1 : t.val % 250 = 249) (xs0 : Vec F S1000x128 .f32) (xs1 : Vec F S1000x1 .f32) : Vec F S1000x128 .f32 × Vec F S1000x128 .f32 × Vec F S1000x1 .f32 :=
  (out0_C_6 V c t (fun h => h0 ((hcond0_0 t).mp h)) ((hcond0_1 t).mpr h1) xs0 xs1, sout0_C_0 V c t (fun h => h0 ((hcond0_0 t).mp h)) ((hcond0_1 t).mpr h1) xs0 xs1, sout0_C_1 V c t (fun h => h0 ((hcond0_0 t).mp h)) ((hcond0_1 t).mpr h1) xs0 xs1)

def outsAt0 : (n : ℕ) → n < cfg0.N → Vec F S1000x128 .f32 × Vec F S1000x128 .f32 × Vec F S1000x1 .f32
  | 0, hn => step0_A V c ⟨0, hn⟩ (Nat.zero_mod _) (show ¬ (0 % 250 = 249) by decide)
  | n + 1, hn =>
    if h0 : (n + 1) % 250 = 0 then
      if h1 : (n + 1) % 250 = 249 then False.elim (by omega)
      else step0_A V c ⟨n + 1, hn⟩ h0 h1
    else
      if h1 : (n + 1) % 250 = 249 then
        step0_C V c ⟨n + 1, hn⟩ h0 h1 (outsAt0 n (Nat.lt_of_succ_lt hn)).2.1 (outsAt0 n (Nat.lt_of_succ_lt hn)).2.2
      else
        step0_B V c ⟨n + 1, hn⟩ h0 h1 (outsAt0 n (Nat.lt_of_succ_lt hn)).2.1 (outsAt0 n (Nat.lt_of_succ_lt hn)).2.2

theorem outsAt0_A (h0 : t.val % 250 = 0) (h1 : ¬t.val % 250 = 249) : outsAt0 V c t.val t.isLt = step0_A V c t h0 h1 := by
  obtain ⟨n, hn⟩ := t
  cases n with
  | zero => rfl
  | succ n => exact (dif_pos h0).trans ((dif_neg h1).trans rfl)

theorem outsAt0_B (h0 : ¬t.val % 250 = 0) (h1 : ¬t.val % 250 = 249) :
    outsAt0 V c t.val t.isLt = step0_B V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (h0 : ¬t.val % 250 = 0) (h1 : t.val % 250 = 249) :
    outsAt0 V c t.val t.isLt = step0_C V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

def PhiAt0 (a : Vec F S1000x128 .f32) (b : Vec F S1000x1 .f32) : sProp 𝕄 :=
  iprop(iprop(iprop(owns (c : Thread nD τ) scM0_0 fullShare a ∗ owns (c : Thread nD τ) scM0_1 fullShare b)
      ∗ Pipeline.scopedRestBut (Ix := Unit) (Name := ℕ) (U := UR sig nD τ) (Lvl := ℕ) (Val := Elt F) spec0 c [cc0_scratch0, cc0_scratch1]) ∗ (∃ r, prngReg c r))

/-- Between points the accumulators are held at what the point before left in them; before the first point, at anything. -/
def PhiS0 : (n : ℕ) → n ≤ cfg0.N → sProp 𝕄
  | 0, _ => Pipeline.ΦA spec0 c
  | n + 1, hn => PhiAt0 c (outsAt0 V c n hn).2.1 (outsAt0 V c n hn).2.2

theorem PhiS0_pos (n : ℕ) (h : n ≤ cfg0.N) (hz : n ≠ 0) :
    PhiS0 V c n h = PhiAt0 c (outsAt0 V c (n - 1) (by omega)).2.1 (outsAt0 V c (n - 1) (by omega)).2.2 := by
  cases n with
  | zero => exact absurd rfl hz
  | succ n => rfl

/-- Forgetting what the accumulators hold gives the region's plain invariant back. -/
theorem PhiS0_any (n : ℕ) (h : n ≤ cfg0.N) : PhiS0 V c n h ⊢ Pipeline.ΦA spec0 c := by
  cases n with
  | zero => exact .rfl
  | succ n =>
    rw [PhiA0_eq]; unfold PhiS0 PhiAt0
    iintro ⟨⟨⟨HS0, HS1⟩, $⟩, $⟩
    isplitl [HS0] <;> iexists _ <;> iassumption

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (w : Fin cfg0.W) : (dat0 V c).A w = V c (Pipeline.arrRef spec0 w) := rfl

theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = iblk0 V c 4 t := rfl
theorem after0_5 : (dat0 V c).after 5 t = iblk0 V c 5 t := rfl
theorem after0_6 : (dat0 V c).after 6 t = (outsAt0 V c t.val t.isLt).1 := rfl

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl
theorem before0_5 (d) : (dat0 V c).before 5 t d = iblk0 V c 5 t :=
  ((dat0 V c).before_in_eq_fetched 5 rfl (fun _ => rfl) (fun _ _ _ => rfl) (fun _ => rfl) t d).trans rfl

/-- By cases on the point's place in its node block; the totals pass from each point to the next through the invariant. -/
theorem sound_body0 :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d))
      ∗ (∃ d, owns (c : Thread nD τ) (ms0_4 t) fullShare ((dat0 V c).before 4 t d))
      ∗ (∃ d, owns (c : Thread nD τ) (ms0_5 t) fullShare ((dat0 V c).before 5 t d))
      ∗ (∃ d, owns (c : Thread nD τ) (ms0_6 t) fullShare ((dat0 V c).before 6 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t
        ∗ (dat0 V c).leavesExact 4 t ∗ (dat0 V c).leavesExact 5 t ∗ (dat0 V c).leavesExact 6 t)) := by
  unfold bodyAt0
  simp only [before0_0, before0_1, before0_2, before0_3, before0_4, before0_5]
  rw [show (dat0 V c).owesAt () t.succ = (dat0 V c).owesAt () t.castSucc from rfl,
    show (dat0 V c).Φ t.succ = PhiAt0 c (outsAt0 V c t.val t.isLt).2.1 (outsAt0 V c t.val t.isLt).2.2 from rfl,
    show (dat0 V c).Φ t.castSucc = PhiS0 V c t.val (Nat.le_of_lt t.isLt) from rfl,
    (dat0 V c).leavesExact_live 0 t (live0 0 t (by decide)), (dat0 V c).leavesExact_live 1 t (live0 1 t (by decide)), (dat0 V c).leavesExact_live 2 t (live0 2 t (by decide)), (dat0 V c).leavesExact_live 3 t (live0 3 t (by decide)), (dat0 V c).leavesExact_live 4 t (live0 4 t (by decide)), (dat0 V c).leavesExact_live 5 t (live0 5 t (by decide)),
    after0_0, after0_1, after0_2, after0_3, after0_4, after0_5]
  by_cases h0 : t.val % 250 = 0
  · have h1 : ¬t.val % 250 = 249 := by omega
    have hc1 : ¬cond0_1 (grid0.coords t) := fun h => h1 ((hcond0_1 t).mp h)
    rw [Dat.leavesExact_idle (dat0 V c) 6 t (idleAt0_6 t hc1) (noFlush0_6 t hc1), outsAt0_A V c t h0 h1]
    unfold step0_A sout0_A_0 sout0_A_1; dsimp only
    refine (sep_mono (PhiS0_any V c _ _) .rfl).trans ?_
    rw [PhiA0_eq]; unfold PhiAt0
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((run0_A V c t ((hcond0_0 t).mpr h0) hc1).2.2.2 _ Set.univ _)
    unfold ins0
    iframe
    iintro ⟨⟨H0, H1, H2, H3, H4, H5⟩, H6, HS0, HS1⟩
    iframe
    isplitl [HS0 HS1]
    · isplitl [HS0]; · iapply owns_writes _ _ _ _ _ _ (scover0_A_0 V c t _ _); iexact HS0
      iapply owns_writes _ _ _ _ _ _ (scover0_A_1 V c t _ _); iexact HS1
    iexists _; iexact H6
  · have hc0 : ¬cond0_0 (grid0.coords t) := fun h => h0 ((hcond0_0 t).mp h)
    rw [PhiS0_pos V c _ _ fun hz => h0 (by rw [hz])]; unfold PhiAt0
    by_cases h1 : t.val % 250 = 249
    · rw [(dat0 V c).leavesExact_live 6 t (liveAt0_6 t ((hcond0_1 t).mpr h1)), after0_6, outsAt0_C V c t h0 h1]
      unfold step0_C out0_C_6 sout0_C_0 sout0_C_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run0_C V c t hc0 ((hcond0_1 t).mpr h1) _ _).2.2.2 Set.univ _)
      unfold ins0
      iframe
      isplitl [H6]; · iexists _; iexact H6
      iintro ⟨⟨H0, H1, H2, H3, H4, H5⟩, H6, HS0, HS1⟩
      iframe
      isplitl [HS0 HS1]
      · isplitl [HS0]; · iapply owns_writes _ _ _ _ _ _ (scover0_C_0 V c t _ _ _ _); iexact HS0
        iapply owns_writes _ _ _ _ _ _ (scover0_C_1 V c t _ _ _ _); iexact HS1
      iapply owns_writes _ _ _ _ _ _ (cover0_C_6 V c t _ _ _ _); iexact H6
    · have hc1 : ¬cond0_1 (grid0.coords t) := fun h => h1 ((hcond0_1 t).mp h)
      rw [Dat.leavesExact_idle (dat0 V c) 6 t (idleAt0_6 t hc1) (noFlush0_6 t hc1), outsAt0_B V c t h0 h1]
      unfold step0_B sout0_B_0 sout0_B_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run0_B V c t hc0 hc1 _ _).2.2.2 _ Set.univ _)
      unfold ins0
      iframe
      iintro ⟨⟨H0, H1, H2, H3, H4, H5⟩, H6, HS0, HS1⟩
      iframe
      isplitl [HS0 HS1]
      · isplitl [HS0]; · iapply owns_writes _ _ _ _ _ _ (scover0_B_0 V c t _ _ _ _); iexact HS0
        iapply owns_writes _ _ _ _ _ _ (scover0_B_1 V c t _ _ _ _); iexact HS1
      iexists _; iexact H6

theorem body_obligation0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

theorem Phi_any0 (t : Fin (cfg0.N + 1)) : (dat0 V c).Φ t ⊢ Pipeline.ΦA spec0 c := PhiS0_any V c t.val _

theorem hout0 : (dat0 V c).Φ (Fin.last cfg0.N) ⊢ Pipeline.ΦA spec0 c := Phi_any0 V c _

end Cert.KernelIdeal.Frame

end
-- ==== Proof.KI.Sage1Runs.lean ====
import proofs.«418495_j25864293056532_3_alg».proof.Proof.Gen.KernelIdeal.Launch
import proofs.«418495_j25864293056532_3_alg».proof.Proof.Gen.KernelIdeal.Skeleton
import proofs.«418495_j25864293056532_3_alg».proof.Proof.Gen.KernelIdeal.Points
import proofs.«418495_j25864293056532_3_alg».proof.Proof.LibOwns
import Idealize.ShloMosaic.Lib.Pipeline.FrameSuffix
import Idealize.ShloMosaic.Lib.Ring
import Idealize.ShloMosaic.Lib.Tactic

noncomputable section

namespace Cert.KernelIdeal.Frame

open Cert.KernelIdeal.Gen
open Idealize.ShloMosaic Idealize.ShloMosaic.TcCoe
open Idealize.SL.RA Idealize.SL.BI
open scoped Idealize.SL.BI
open Idealize.SL.BI.BIBase

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 250 = 0 :=
  (by decide +kernel : ∀ t : Fin grid1.N, cond1_0 (grid1.coords t) ↔ t.val % 250 = 0)

abbrev cond1_1 (i : grid1.Coords) : Prop := k1_cond2 i = 1#1
theorem hcond1_1 : ∀ t : Fin cfg1.N, cond1_1 (grid1.coords t) ↔ t.val % 250 = 249 :=
  (by decide +kernel : ∀ t : Fin grid1.N, cond1_1 (grid1.coords t) ↔ t.val % 250 = 249)

theorem live1 : ∀ (w : Fin cfg1.W) (t : Fin cfg1.N), w ≠ 6 → cfg1.idle w (grid1.coords t) = false := by decide +kernel

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel

theorem liveAt1_6 : ∀ t : Fin cfg1.N, cond1_1 (grid1.coords t) → cfg1.idle 6 (grid1.coords t) = false := by decide +kernel

abbrev VO1_6 : View sig .tc .vmem S1000x128 .f32 := (Memref.whole cc1_stg6_0 : Memref sig .tc .vmem S1000x128 .f32).view
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2560 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1000x128 .f32 := win1_6.stage (cfg1.slots t 6)
abbrev hs1_6 (t : Fin cfg1.N) : (ms1_6 t).IsWhole := hstage1_6 ((cfg1.slots t 6).cast nbuf1_6)

abbrev scM1_0 : Memref sig .tc .vmem S1000x128 .f32 := Memref.whole cc1_scratch0
abbrev scM1_1 : Memref sig .tc .vmem S1000x1 .f32 := Memref.whole cc1_scratch1
abbrev VS1_0 : View sig .tc .vmem S1000x128 .f32 := scM1_0.view
abbrev VS1_1 : View sig .tc .vmem S1000x1 .f32 := scM1_1.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.KernelIdeal.Frame

end
-- ==== Proof.KI.Sage1Run.lean ====
import proofs.«418495_j25864293056532_3_alg».proof.Proof.KI.Sage1Runs

noncomputable section

namespace Cert.KernelIdeal.Frame

open Cert.KernelIdeal.Gen
open Idealize.ShloMosaic Idealize.ShloMosaic.TcCoe
open Idealize.SL.RA Idealize.SL.BI
open scoped Idealize.SL.BI
open Idealize.SL.BI.BIBase Idealize.SL.Sem

variable {F : FTy → Type} [FloatOps F]

local notation "𝕄" => MT nD τ sig Unit (Elt F) ℕ (UR sig nD τ) ℕ

variable (c : Dev nD) (i : grid1.Coords)
  (arg2 : Memref sig .tc .vmem S10000x128 .f32) (harg2 : arg2.IsWhole) (arg3 : Memref sig .tc .vmem S2560x128 .f32) (harg3 : arg3.IsWhole)
  (arg4 : Memref sig .tc .vmem S1x2560 .i32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S1x128 .f32) (harg7 : arg7.IsWhole)
  (arg8 : Memref sig .tc .vmem S1000x128 .f32) (harg8 : arg8.IsWhole) (arg9 : Memref sig .tc .vmem S1000x128 .f32) (harg9 : arg9.IsWhole)
  (arg10 : Memref sig .tc .vmem S1000x1 .f32) (harg10 : arg10.IsWhole)
  (x0 : Vec F S10000x128 .f32) (x1 : Vec F S2560x128 .f32) (x2 : Vec F S1x2560 .i32) (x3 : Vec F S128x128 .f32) (x4 : Vec F S128x128 .f32)
  (x5 : Vec F S1x128 .f32)

abbrev ins1 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- A run of the body from `P` to `Q`, the operands kept and the two totals written through the pieces `LS0`, `LS1`. -/
abbrev Run1 (P Q : sProp 𝕄) (LS0 : List (View.Piece (Elt F) S1000x128 .f32)) (LS1 : List (View.Piece (Elt F) S1000x1 .f32)) : Prop :=
  ∀ (E : Set ℕ) (K : PUnit → sProp 𝕄),
    iprop(ins1 c arg2 arg3 arg4 arg5 arg6 arg7 x0 x1 x2 x3 x4 x5 ∗ P
        ∗ (iprop(ins1 c arg2 arg3 arg4 arg5 arg6 arg7 x0 x1 x2 x3 x4 x5 ∗ Q
            ∗ (∃ f, arg9.view.loc (c : Thread nD τ) ↦[arg9.view.set]{fullShare} arg9.view.writes (Elt F) f LS0)
            ∗ (∃ f, arg10.view.loc (c : Thread nD τ) ↦[arg10.view.set]{fullShare} arg10.view.writes (Elt F) f LS1)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9 arg10 harg10) K

noncomputable def kernelRun1_A (hc0 : cond1_0 i) (hc1 : ¬cond1_1 i) :
    Σ' (L6 : List (View.Piece (Elt F) S1000x128 .f32)) (LS0 : List (View.Piece (Elt F) S1000x128 .f32)), { LS1 : List (View.Piece (Elt F) S1000x1 .f32) //
      ∀ xi6 : Vec F S1000x128 .f32, Run1 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ (∃ d, owns (c : Thread nD τ) arg9 fullShare d) ∗ (∃ d, owns (c : Thread nD τ) arg10 fullShare d))
        (owns (c : Thread nD τ) arg8 fullShare xi6) LS0 LS1 } := by
  refine ⟨[], ?_, ?_, fun xi6 E K => ?run⟩
  case run =>
    simp only [cc1__sage_kernel_eq_skeleton]; unfold cc1__sage_kernel_skel
    simp only [k1_part1_eq_skeleton]
    unfold ins1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%ds0, %fs0, -, HS0⟩, ⟨%ds1, %fs1, -, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun1_B (hc0 : ¬cond1_0 i) (hc1 : ¬cond1_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      ∀ xi6 : Vec F S1000x128 .f32, Run1 c i arg2 harg2 arg3 harg3 arg4 harg4 arg5 harg5 arg6 harg6 arg7 harg7 arg8 harg8 arg9 harg9 arg10 harg10 x0 x1 x2 x3 x4 x5
        iprop(owns (c : Thread nD τ) arg8 fullShare xi6 ∗ owns (c : Thread nD τ) arg9 fullShare xs0 ∗ owns (c : Thread nD τ) arg10 fullShare xs1)
        (owns (c : Thread nD τ) arg8 fullShare xi6) LS0 LS1 } := by
  refine ⟨[], ?_, ?_, fun xi6 E K => ?run⟩
  case run =>
    simp only [cc1__sage_kernel_eq_skeleton]; unfold cc1__sage_kernel_skel
    simp only [k1_part1_eq_skeleton]
    unfold ins1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%f6, %hf6, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iapply owns_unread _ harg8; iexact H6
    isplitl [HS0]; · iexists _; iexact HS0
    iexists _; iexact HS1

noncomputable def kernelRun1_C (hc0 : ¬cond1_0 i) (hc1 : cond1_1 i) (xs0 : Vec F S1000x128 .f32) (xs1 : Vec F S1000x1 .f32) :
    Σ' (L6 : List (View.Piece (Elt F) S1000x128 .f32)) (LS0 : List (View.Piece (Elt F) S1000x128 .f32)), { LS1 : List (View.Piece (Elt F) S1000x1 .f32) //
      Run1 c i arg2 harg2 arg3 harg3 arg4 harg4 arg5 harg5 arg6 harg6 arg7 harg7 arg8 harg8 arg9 harg9 arg10 harg10 x0 x1 x2 x3 x4 x5
        iprop((∃ d, owns (c : Thread nD τ) arg8 fullShare d) ∗ owns (c : Thread nD τ) arg9 fullShare xs0 ∗ owns (c : Thread nD τ) arg10 fullShare xs1)
        iprop(∃ f, arg8.view.loc (c : Thread nD τ) ↦[arg8.view.set]{fullShare} arg8.view.writes (Elt F) f L6) LS0 LS1 } := by
  refine ⟨?_, ?_, ?_, fun E K => ?run⟩
  case run =>
    simp only [cc1__sage_kernel_eq_skeleton]; unfold cc1__sage_kernel_skel
    simp only [k1_part1_eq_skeleton]
    unfold ins1 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%d6, %f6, -, H6⟩, ⟨%fs0, %hfs0, HS0⟩, ⟨%fs1, %hfs1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0 H1 H2 H3 H4 H5]
    · isplitl [H0]; · iapply owns_unread _ harg2; iexact H0
      isplitl [H1]; · iapply owns_unread _ harg3; iexact H1
      isplitl [H2]; · iapply owns_unread _ harg4; iexact H2
      isplitl [H3]; · iapply owns_unread _ harg5; iexact H3
      isplitl [H4]; · iapply owns_unread _ harg6; iexact H4
      iapply owns_unread _ harg7; iexact H5
    isplitl [H6]; · iexists _; iexact H6
    isplitl [HS0]; · iexists _; iexact HS0
    iexists _; iexact HS1

end Cert.KernelIdeal.Frame

end
-- ==== Proof.KI.Sage1Frame.lean ====
import proofs.«418495_j25864293056532_3_alg».proof.Proof.KI.Sage1Run

noncomputable section

namespace Cert.KernelIdeal.Frame

open Cert.KernelIdeal.Gen
open Idealize.ShloMosaic Idealize.ShloMosaic.TcCoe
open Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD) (t : Fin cfg1.N)

section
variable (hc0 : cond1_0 (grid1.coords t)) (hc1 : ¬cond1_1 (grid1.coords t))
abbrev run1_A := kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) hc0 hc1

def out1_A_6 : Vec F S1000x128 .f32 :=
  VO1_6.read (Elt F) (VO1_6.writes (Elt F) VO1_6.junk (run1_A V c t hc0 hc1).1)
theorem scover1_A_0 (y : S1000x128.Idx) : ∃ pc ∈ (run1_A V c t hc0 hc1).2.1, y ∈ pc.1.set :=
  View.cover_of_tiledL _ S1000x128.size (by sl_kernel_rfl) y
def sout1_A_0 : Vec F S1000x128 .f32 :=
  VS1_0.read (Elt F) (VS1_0.writes (Elt F) VS1_0.junk (run1_A V c t hc0 hc1).2.1)
theorem scover1_A_1 (y : S1000x1.Idx) : ∃ pc ∈ (run1_A V c t hc0 hc1).2.2.1, y ∈ pc.1.set :=
  View.cover_of_tiledL _ S1000x1.size (by sl_kernel_rfl) y
def sout1_A_1 : Vec F S1000x1 .f32 :=
  VS1_1.read (Elt F) (VS1_1.writes (Elt F) VS1_1.junk (run1_A V c t hc0 hc1).2.2.1)
end

section
variable (hc0 : ¬cond1_0 (grid1.coords t)) (hc1 : ¬cond1_1 (grid1.coords t)) (xs0 : Vec F S1000x128 .f32) (xs1 : Vec F S1000x1 .f32)
abbrev run1_B := kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) hc0 hc1 xs0 xs1

def out1_B_6 : Vec F S1000x128 .f32 :=
  VO1_6.read (Elt F) (VO1_6.writes (Elt F) VO1_6.junk (run1_B V c t hc0 hc1 xs0 xs1).1)
theorem scover1_B_0 (y : S1000x128.Idx) : ∃ pc ∈ (run1_B V c t hc0 hc1 xs0 xs1).2.1, y ∈ pc.1.set :=
  View.cover_of_tiledL _ S1000x128.size (by sl_kernel_rfl) y
def sout1_B_0 : Vec F S1000x128 .f32 :=
  VS1_0.read (Elt F) (VS1_0.writes (Elt F) VS1_0.junk (run1_B V c t hc0 hc1 xs0 xs1).2.1)
theorem scover1_B_1 (y : S1000x1.Idx) : ∃ pc ∈ (run1_B V c t hc0 hc1 xs0 xs1).2.2.1, y ∈ pc.1.set :=
  View.cover_of_tiledL _ S1000x1.size (by sl_kernel_rfl) y
def sout1_B_1 : Vec F S1000x1 .f32 :=
  VS1_1.read (Elt F) (VS1_1.writes (Elt F) VS1_1.junk (run1_B V c t hc0 hc1 xs0 xs1).2.2.1)
end

section
variable (hc0 : ¬cond1_0 (grid1.coords t)) (hc1 : cond1_1 (grid1.coords t)) (xs0 : Vec F S1000x128 .f32) (xs1 : Vec F S1000x1 .f32)
abbrev run1_C := kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) (iblk1 V c 5 t) hc0 hc1 xs0 xs1

def out1_C_6 : Vec F S1000x128 .f32 :=
  VO1_6.read (Elt F) (VO1_6.writes (Elt F) VO1_6.junk (run1_C V c t hc0 hc1 xs0 xs1).1)
theorem cover1_C_6 (y : S1000x128.Idx) : ∃ pc ∈ (run1_C V c t hc0 hc1 xs0 xs1).1, y ∈ pc.1.set :=
  View.cover_of_tiledL _ S1000x128.size (by sl_kernel_rfl) y
theorem scover1_C_0 (y : S1000x128.Idx) : ∃ pc ∈ (run1_C V c t hc0 hc1 xs0 xs1).2.1, y ∈ pc.1.set :=
  View.cover_of_tiledL _ S1000x128.size (by sl_kernel_rfl) y
def sout1_C_0 : Vec F S1000x128 .f32 :=
  VS1_0.read (Elt F) (VS1_0.writes (Elt F) VS1_0.junk (run1_C V c t hc0 hc1 xs0 xs1).2.1)
theorem scover1_C_1 (y : S1000x1.Idx) : ∃ pc ∈ (run1_C V c t hc0 hc1 xs0 xs1).2.2.1, y ∈ pc.1.set :=
  View.cover_of_tiledL _ S1000x1.size (by sl_kernel_rfl) y
def sout1_C_1 : Vec F S1000x1 .f32 :=
  VS1_1.read (Elt F) (VS1_1.writes (Elt F) VS1_1.junk (run1_C V c t hc0 hc1 xs0 xs1).2.2.1)
end

def step1_A (h0 : t.val % 250 = 0) (h1 : ¬t.val % 250 = 249) : Vec F S1000x128 .f32 × Vec F S1000x128 .f32 × Vec F S1000x1 .f32 :=
  (out1_A_6 V c t ((hcond1_0 t).mpr h0) (fun h => h1 ((hcond1_1 t).mp h)), sout1_A_0 V c t ((hcond1_0 t).mpr h0) (fun h => h1 ((hcond1_1 t).mp h)), sout1_A_1 V c t ((hcond1_0 t).mpr h0) (fun h => h1 ((hcond1_1 t).mp h)))
def step1_B (h0 : ¬t.val % 250 = 0) (h1 : ¬t.val % 250 = 249) (xs0 : Vec F S1000x128 .f32) (xs1 : Vec F S1000x1 .f32) : Vec F S1000x128 .f32 × Vec F S1000x128 .f32 × Vec F S1000x1 .f32 :=
  (out1_B_6 V c t (fun h => h0 ((hcond1_0 t).mp h)) (fun h => h1 ((hcond1_1 t).mp h)) xs0 xs1, sout1_B_0 V c t (fun h => h0 ((hcond1_0 t).mp h)) (fun h => h1 ((hcond1_1 t).mp h)) xs0 xs1, sout1_B_1 V c t (fun h => h0 ((hcond1_0 t).mp h)) (fun h => h1 ((hcond1_1 t).mp h)) xs0 xs1)
def step1_C (h0 : ¬t.val % 250 = 0) (h1 : t.val % 250 = 249) (xs0 : Vec F S1000x128 .f32) (xs1 : Vec F S1000x1 .f32) : Vec F S1000x128 .f32 × Vec F S1000x128 .f32 × Vec F S1000x1 .f32 :=
  (out1_C_6 V c t (fun h => h0 ((hcond1_0 t).mp h)) ((hcond1_1 t).mpr h1) xs0 xs1, sout1_C_0 V c t (fun h => h0 ((hcond1_0 t).mp h)) ((hcond1_1 t).mpr h1) xs0 xs1, sout1_C_1 V c t (fun h => h0 ((hcond1_0 t).mp h)) ((hcond1_1 t).mpr h1) xs0 xs1)

def outsAt1 : (n : ℕ) → n < cfg1.N → Vec F S1000x128 .f32 × Vec F S1000x128 .f32 × Vec F S1000x1 .f32
  | 0, hn => step1_A V c ⟨0, hn⟩ (Nat.zero_mod _) (show ¬ (0 % 250 = 249) by decide)
  | n + 1, hn =>
    if h0 : (n + 1) % 250 = 0 then
      if h1 : (n + 1) % 250 = 249 then False.elim (by omega)
      else step1_A V c ⟨n + 1, hn⟩ h0 h1
    else
      if h1 : (n + 1) % 250 = 249 then
        step1_C V c ⟨n + 1, hn⟩ h0 h1 (outsAt1 n (Nat.lt_of_succ_lt hn)).2.1 (outsAt1 n (Nat.lt_of_succ_lt hn)).2.2
      else
        step1_B V c ⟨n + 1, hn⟩ h0 h1 (outsAt1 n (Nat.lt_of_succ_lt hn)).2.1 (outsAt1 n (Nat.lt_of_succ_lt hn)).2.2

theorem outsAt1_A (h0 : t.val % 250 = 0) (h1 : ¬t.val % 250 = 249) : outsAt1 V c t.val t.isLt = step1_A V c t h0 h1 := by
  obtain ⟨n, hn⟩ := t
  cases n with
  | zero => rfl
  | succ n => exact (dif_pos h0).trans ((dif_neg h1).trans rfl)

theorem outsAt1_B (h0 : ¬t.val % 250 = 0) (h1 : ¬t.val % 250 = 249) :
    outsAt1 V c t.val t.isLt = step1_B V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (h0 : ¬t.val % 250 = 0) (h1 : t.val % 250 = 249) :
    outsAt1 V c t.val t.isLt = step1_C V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

def PhiAt1 (a : Vec F S1000x128 .f32) (b : Vec F S1000x1 .f32) : sProp 𝕄 :=
  iprop(iprop(iprop(owns (c : Thread nD τ) scM1_0 fullShare a ∗ owns (c : Thread nD τ) scM1_1 fullShare b)
      ∗ Pipeline.scopedRestBut (Ix := Unit) (Name := ℕ) (U := UR sig nD τ) (Lvl := ℕ) (Val := Elt F) spec1 c [cc1_scratch0, cc1_scratch1]) ∗ (∃ r, prngReg c r))

/-- Between points the accumulators are held at what the point before left in them; before the first point, at anything. -/
def PhiS1 : (n : ℕ) → n ≤ cfg1.N → sProp 𝕄
  | 0, _ => Pipeline.ΦA spec1 c
  | n + 1, hn => PhiAt1 c (outsAt1 V c n hn).2.1 (outsAt1 V c n hn).2.2

theorem PhiS1_pos (n : ℕ) (h : n ≤ cfg1.N) (hz : n ≠ 0) :
    PhiS1 V c n h = PhiAt1 c (outsAt1 V c (n - 1) (by omega)).2.1 (outsAt1 V c (n - 1) (by omega)).2.2 := by
  cases n with
  | zero => exact absurd rfl hz
  | succ n => rfl

/-- Forgetting what the accumulators hold gives the region's plain invariant back. -/
theorem PhiS1_any (n : ℕ) (h : n ≤ cfg1.N) : PhiS1 V c n h ⊢ Pipeline.ΦA spec1 c := by
  cases n with
  | zero => exact .rfl
  | succ n =>
    rw [PhiA1_eq]; unfold PhiS1 PhiAt1
    iintro ⟨⟨⟨HS0, HS1⟩, $⟩, $⟩
    isplitl [HS0] <;> iexists _ <;> iassumption

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl

theorem after1_0 : (dat1 V c).after 0 t = iblk1 V c 0 t := rfl
theorem after1_1 : (dat1 V c).after 1 t = iblk1 V c 1 t := rfl
theorem after1_2 : (dat1 V c).after 2 t = iblk1 V c 2 t := rfl
theorem after1_3 : (dat1 V c).after 3 t = iblk1 V c 3 t := rfl
theorem after1_4 : (dat1 V c).after 4 t = iblk1 V c 4 t := rfl
theorem after1_5 : (dat1 V c).after 5 t = iblk1 V c 5 t := rfl
theorem after1_6 : (dat1 V c).after 6 t = (outsAt1 V c t.val t.isLt).1 := rfl

theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl
theorem before1_3 (d) : (dat1 V c).before 3 t d = iblk1 V c 3 t :=
  ((dat1 V c).before_in_eq_fetched 3 rfl (fun _ => rfl) (fun _ _ _ => rfl) (fun _ => rfl) t d).trans rfl
theorem before1_4 (d) : (dat1 V c).before 4 t d = iblk1 V c 4 t :=
  ((dat1 V c).before_in_eq_fetched 4 rfl (fun _ => rfl) (fun _ _ _ => rfl) (fun _ => rfl) t d).trans rfl
theorem before1_5 (d) : (dat1 V c).before 5 t d = iblk1 V c 5 t :=
  ((dat1 V c).before_in_eq_fetched 5 rfl (fun _ => rfl) (fun _ _ _ => rfl) (fun _ => rfl) t d).trans rfl

/-- By cases on the point's place in its node block; the totals pass from each point to the next through the invariant. -/
theorem sound_body1 :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t
        ∗ (dat1 V c).leavesExact 4 t ∗ (dat1 V c).leavesExact 5 t ∗ (dat1 V c).leavesExact 6 t)) := by
  unfold bodyAt1
  simp only [before1_0, before1_1, before1_2, before1_3, before1_4, before1_5]
  rw [show (dat1 V c).owesAt () t.succ = (dat1 V c).owesAt () t.castSucc from rfl,
    show (dat1 V c).Φ t.succ = PhiAt1 c (outsAt1 V c t.val t.isLt).2.1 (outsAt1 V c t.val t.isLt).2.2 from rfl,
    show (dat1 V c).Φ t.castSucc = PhiS1 V c t.val (Nat.le_of_lt t.isLt) from rfl,
    (dat1 V c).leavesExact_live 0 t (live1 0 t (by decide)), (dat1 V c).leavesExact_live 1 t (live1 1 t (by decide)), (dat1 V c).leavesExact_live 2 t (live1 2 t (by decide)), (dat1 V c).leavesExact_live 3 t (live1 3 t (by decide)), (dat1 V c).leavesExact_live 4 t (live1 4 t (by decide)), (dat1 V c).leavesExact_live 5 t (live1 5 t (by decide)),
    after1_0, after1_1, after1_2, after1_3, after1_4, after1_5]
  by_cases h0 : t.val % 250 = 0
  · have h1 : ¬t.val % 250 = 249 := by omega
    have hc1 : ¬cond1_1 (grid1.coords t) := fun h => h1 ((hcond1_1 t).mp h)
    rw [Dat.leavesExact_idle (dat1 V c) 6 t (idleAt1_6 t hc1) (noFlush1_6 t hc1), outsAt1_A V c t h0 h1]
    unfold step1_A sout1_A_0 sout1_A_1; dsimp only
    refine (sep_mono (PhiS1_any V c _ _) .rfl).trans ?_
    rw [PhiA1_eq]; unfold PhiAt1
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((run1_A V c t ((hcond1_0 t).mpr h0) hc1).2.2.2 _ Set.univ _)
    unfold ins1
    iframe
    iintro ⟨⟨H0, H1, H2, H3, H4, H5⟩, H6, HS0, HS1⟩
    iframe
    isplitl [HS0 HS1]
    · isplitl [HS0]; · iapply owns_writes _ _ _ _ _ _ (scover1_A_0 V c t _ _); iexact HS0
      iapply owns_writes _ _ _ _ _ _ (scover1_A_1 V c t _ _); iexact HS1
    iexists _; iexact H6
  · have hc0 : ¬cond1_0 (grid1.coords t) := fun h => h0 ((hcond1_0 t).mp h)
    rw [PhiS1_pos V c _ _ fun hz => h0 (by rw [hz])]; unfold PhiAt1
    by_cases h1 : t.val % 250 = 249
    · rw [(dat1 V c).leavesExact_live 6 t (liveAt1_6 t ((hcond1_1 t).mpr h1)), after1_6, outsAt1_C V c t h0 h1]
      unfold step1_C out1_C_6 sout1_C_0 sout1_C_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_C V c t hc0 ((hcond1_1 t).mpr h1) _ _).2.2.2 Set.univ _)
      unfold ins1
      iframe
      isplitl [H6]; · iexists _; iexact H6
      iintro ⟨⟨H0, H1, H2, H3, H4, H5⟩, H6, HS0, HS1⟩
      iframe
      isplitl [HS0 HS1]
      · isplitl [HS0]; · iapply owns_writes _ _ _ _ _ _ (scover1_C_0 V c t _ _ _ _); iexact HS0
        iapply owns_writes _ _ _ _ _ _ (scover1_C_1 V c t _ _ _ _); iexact HS1
      iapply owns_writes _ _ _ _ _ _ (cover1_C_6 V c t _ _ _ _); iexact H6
    · have hc1 : ¬cond1_1 (grid1.coords t) := fun h => h1 ((hcond1_1 t).mp h)
      rw [Dat.leavesExact_idle (dat1 V c) 6 t (idleAt1_6 t hc1) (noFlush1_6 t hc1), outsAt1_B V c t h0 h1]
      unfold step1_B sout1_B_0 sout1_B_1; dsimp only
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_B V c t hc0 hc1 _ _).2.2.2 _ Set.univ _)
      unfold ins1
      iframe
      iintro ⟨⟨H0, H1, H2, H3, H4, H5⟩, H6, HS0, HS1⟩
      iframe
      isplitl [HS0 HS1]
      · isplitl [HS0]; · iapply owns_writes _ _ _ _ _ _ (scover1_B_0 V c t _ _ _ _); iexact HS0
        iapply owns_writes _ _ _ _ _ _ (scover1_B_1 V c t _ _ _ _); iexact HS1
      iexists _; iexact H6

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem Phi_any1 (t : Fin (cfg1.N + 1)) : (dat1 V c).Φ t ⊢ Pipeline.ΦA spec1 c := PhiS1_any V c t.val _

theorem hout1 : (dat1 V c).Φ (Fin.last cfg1.N) ⊢ Pipeline.ΦA spec1 c := Phi_any1 V c _

end Cert.KernelIdeal.Frame

end
-- ==== Proof.KI.Clf2.lean ====
import proofs.«418495_j25864293056532_3_alg».proof.Proof.Gen.KernelIdeal.Launch
import proofs.«418495_j25864293056532_3_alg».proof.Proof.Gen.KernelIdeal.Skeleton
import proofs.«418495_j25864293056532_3_alg».proof.Proof.Gen.KernelIdeal.Points
import proofs.«418495_j25864293056532_3_alg».proof.Proof.LibOwns
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal.Gen
open Idealize.ShloMosaic Idealize.ShloMosaic.TcCoe
open Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1000x128 := Rect.unit (s := S1000x128) ![0, 0] S1000x128.size inb_S1000x128_S1000x128_0_0
abbrev r2_1 : Rect S128x40 := Rect.unit (s := S128x40) ![0, 0] S128x40.size inb_S128x40_S128x40_0_0
abbrev r2_2 : Rect S1x40 := Rect.unit (s := S1x40) ![0, 0] S1x40.size inb_S1x40_S1x40_0_0
abbrev r2_3 : Rect S1000x40 := Rect.unit (s := S1000x40) ![0, 0] S1000x40.size inb_S1000x40_S1000x40_0_0

def out2_3 (x0 : Vec F S1000x128 .f32) (x1 : Vec F S128x40 .f32) (x2 : Vec F S1x40 .f32) : Vec F S1000x40 .f32 :=
  View.canon [⟨r2_3, k2_pay1 (View.ld x0 r2_0) (View.ld x1 r2_1) (View.ld x2 r2_2)⟩]

theorem cover2_3 (p0 : Vec F S1000x40 .f32) (y : S1000x40.Idx) :
    ∃ pc ∈ ([⟨r2_3, p0⟩] : List (View.Piece (Elt F) S1000x40 .f32)), y ∈ pc.1.set :=
  View.cover_of_tiled [⟨r2_3, p0⟩] S1000x40.size (by rfl) y

theorem sound_kernel2 (c : Dev nD) (E : Set ℕ) (i : grid2.Coords) (arg1 : Memref sig .tc .vmem S1000x128 .f32) (harg1 : arg1.IsWhole)
    (arg2 : Memref sig .tc .vmem S128x40 .f32) (harg2 : arg2.IsWhole) (arg3 : Memref sig .tc .vmem S1x40 .f32) (harg3 : arg3.IsWhole)
    (arg4 : Memref sig .tc .vmem S1000x40 .f32) (harg4 : arg4.IsWhole)
    (x0 : Vec F S1000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__clf_kernel i arg1 harg1 arg2 harg2 arg3 harg3 arg4 harg4) K := by
  simp only [cc2__clf_kernel_eq_skeleton]; unfold cc2__clf_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    show (dat2 V c).after 0 t = iblk2 V c 0 t by dsimp only [dat2], show (dat2 V c).after 1 t = iblk2 V c 1 t by dsimp only [dat2],
    show (dat2 V c).after 2 t = iblk2 V c 2 t by dsimp only [dat2], after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe
  isplitl; · iexists _; iexact H3
  iintro H; iexact H

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Run.lean ====
import proofs.«418495_j25864293056532_3_alg».proof.Proof.KI.Sage0Frame
import proofs.«418495_j25864293056532_3_alg».proof.Proof.KI.Sage1Frame
import proofs.«418495_j25864293056532_3_alg».proof.Proof.KI.Clf2
import proofs.«418495_j25864293056532_3_alg».proof.Proof.Gen.KernelIdeal.Regions
import Idealize.ShloMosaic.Lib.Pipeline.RegionsLoop
import Idealize.ShloMosaic.Lib.Pipeline.FrameSuffix

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- By cases on whether `b` is some window's array: if it is, that window is an input's, whose array ends as entered. -/
theorem keep {p : Fin 3} (lf : Pipeline.LaunchFacts (nD := nD) (τ := τ) cfgs p) {c : Dev nD} {W : Valuation τ sig (Elt F)}
    {d : Dat τ (Elt F) Unit ℕ (UR sig nD τ) ℕ (cfgs p) c} (hA : ∀ w, d.A w = W (Proc.devRef .tc (Pipeline.arrRef (cfgs p).spec w)))
    (b : Ref sig .tc) (h : ∀ w, Pipeline.arrRef (cfgs p).spec w = b → ((cfgs p).win w).isOut = false) :
    Pipeline.withArrays (cfgs p).spec c W (fun w => d.arrAt w (cfgs p).N) (Proc.devRef .tc b) = W (Proc.devRef .tc b) := by
  by_cases hb : ∃ w, Pipeline.arrRef (cfgs p).spec w = b
  · obtain ⟨w, rfl⟩ := hb
    exact (Pipeline.withArrays_arr _ lf.win.arr_inj c _ _ w).trans ((d.arrAt_in w (h w rfl) _).trans (hA w))
  · exact Pipeline.withArrays_of_ne _ c _ _ b fun w e => hb ⟨w, e⟩

/-- Six steps back from the last boundary to the launch, each leaving `b` as it finds it. -/
theorem W6_keep (c : Dev nD) (b : Ref sig .tc)
    (h : (b ∉ hostOps0_W ∧ b ∉ hostOps1_W ∧ b ∉ hostOps2_W)
      ∧ ∀ (p : Fin 3) (w : Fin (cfgs p).W), Pipeline.arrRef (cfgs p).spec w = b → ((cfgs p).win w).isOut = false) :
    W6 m ρ c (Proc.devRef .tc b) = m ((c : Thread nD τ).loc b) :=
  (keep launch2 (A_eq2 (V5 m ρ) c) b (h.2 2)).trans <| (W5_of m ρ c b h.1.2.2).trans <|
  (keep launch1 (A_eq1 (V3 m ρ) c) b (h.2 1)).trans <| (W3_of m ρ c b h.1.2.1).trans <|
  (keep launch0 (A_eq0 (V1 m ρ) c) b (h.2 0)).trans <| W1_of m ρ c b h.1.1

theorem W6_main_v24 (c : Dev nD) : W6 m ρ c (Proc.devRef .tc main_v24) = (dat2 (V5 m ρ) c).arrAt 3 cfg2.N :=
  Pipeline.withArrays_arr spec2 launch2.win.arr_inj c _ _ 3

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev T (W : Dev nD → Valuation τ sig (Elt F)) (c : Dev nD) : sProp 𝕄 :=
  iprop(StableHlo.held (c : Thread nD τ) (Pipeline.ucRefs τ sig) (W c) ∗ R c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- One record for the three regions: they differ in the index, the entry contents and the facts of the body alone. -/
def reg (p : Fin 3) (lf : Pipeline.LaunchFacts (nD := nD) (τ := τ) cfgs p) (W : Dev nD → Valuation τ sig (Elt F))
    (hA : ∀ c w, (pdats m ρ p c).A w = W c (Proc.devRef .tc (Pipeline.arrRef (cfgs p).spec w)))
    (hq : ∀ c w, (pdats m ρ p c).q w = fullShare) (h0 : ∀ c t, (pdats m ρ p c).owed t = 0 ∧ (pdats m ρ p c).recorded t = Set.univ)
    (hb : ∀ c, BodyObligation (pdats m ρ p c) (defs₀ (F := F)) Variants.none () Set.univ)
    (hi : ∀ c, Pipeline.ΦA (cfgs p).spec c ⊢ (pdats m ρ p c).Φ 0)
    (ho : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => (h0 c t).1
  pre := T W
  post := T fun c => Pipeline.withArrays (cfgs p).spec c (W c) fun w => (pdats m ρ p c).arrAt w (cfgs p).N
  X c := iprop(∃ r, prngReg c r)
  Y c := iprop(∃ r, prngReg c r)
  Z c := Pipeline.unscopedRest (cfgs p).spec c fun b => W c b
  hentry c := by
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    icases hsplit $$ Hub with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound; rw [(h0 c 0).1, (h0 c 0).2]
    icases HO with ⟨%W, HO⟩; iexists W; iframe
    ipureintro; exact fun _ _ => Or.inl trivial
  hin c := by
    refine .trans ?_ (hi c)
    unfold Pipeline.ΦA
    iintro ⟨Hp, -, Hr⟩
    iframe
  hout c := by
    refine (ho c).trans ?_
    rw [Pipeline.ownSems0_none]; unfold Pipeline.ΦA
    iintro ⟨Hr, Hp⟩
    iframe; iempintro
  hexit c := by
    have hjoin := Pipeline.unscopedBufs_of_arrays (p := p) (pcfgs (F := F)) adm
      lf.win lf.arr_whole c (pdats m ρ) ((pdats m ρ p c).share_full (hq c)) (fun b => W c b)
      (fun b => Pipeline.withArrays (cfgs p).spec c (W c) (fun w => (pdats m ρ p c).arrAt w (cfgs p).N) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [(h0 c _).1]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (A_eq0 _) (fun _ _ => rfl) (fun _ _ => ⟨rfl, rfl⟩) (body_obligation0 _) (hin0 _) (hout0 _)),
    .host (hseg hostOps1 hostOps1_sub hostOps1_fresh (W2 m ρ)),
    .region (reg m ρ 1 launch1 (W3 m ρ) (A_eq1 _) (fun _ _ => rfl) (fun _ _ => ⟨rfl, rfl⟩) (body_obligation1 _) (hin1 _) (hout1 _)),
    .host (hseg hostOps2 hostOps2_sub hostOps2_fresh (W4 m ρ)),
    .region (reg m ρ 2 launch2 (W5 m ρ) (A_eq2 _) (fun _ _ => rfl) (fun _ _ => ⟨rfl, rfl⟩) (body_obligation2 _) (fun _ => .rfl) fun _ => .rfl) ]
theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro; iframe; iempintro)
    (T₀ := T (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      iframe)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    have k (b : Ref sig .tc) (hb : ¬ (Proc.devRef .tc b : DevRef τ sig).isScoped) hk :
        r.2.mem ((c.tc : Thread nD τ).loc b) = m ((c.tc : Thread nD τ).loc b) := (h c _ (mem_uc b hb)).trans (W6_keep m ρ c b hk)
    refine ⟨?_, ?_, ?_, ?_, ?_, ?_, ?_, ?_, ?_, ?_⟩ <;> exact k _ (by decide) (by decide)) (run_all m ρ)

end Cert.KernelIdeal.Frame

end
-- ==== Proof.KI.Sage0Blocks.lean ====
import proofs.«418495_j25864293056532_3_alg».proof.Proof.KI.Sage0Runs
import Idealize.ShloMosaic.Lib.ValueIdx
import Idealize.ShloMosaic.Lib.Pipeline.Value

noncomputable section

namespace Cert.KernelIdeal.Frame

open Cert.KernelIdeal Cert.KernelIdeal.Gen
open Idealize.ShloMosaic Idealize.ShloMosaic.TcCoe
open Idealize.ShloMosaic.ValueIdx

variable {F : FTy → Type} [FloatOps F]

variable (V : (c : Dev nD) → (b : Ref sig .tc) → Buf (Elt F) ((c : Thread nD τ).loc b))

theorem idx_facts0 : ∀ t : Fin cfg0.N,
    (∀ a : Fin 2, win0_0.index t a = 0 ∧ win0_3.index t a = 0 ∧ win0_4.index t a = 0 ∧ win0_5.index t a = 0)
      ∧ win0_1.index t (0 : Fin 2) = t.val % 250 ∧ win0_1.index t (1 : Fin 2) = 0
      ∧ win0_2.index t (0 : Fin 2) = 0 ∧ win0_2.index t (1 : Fin 2) = t.val % 250 :=
  (by decide +kernel : ∀ t : Fin grid0.N, _)

-- A block whose number is zero on both axes starts at the array's origin: an index of it is the same index of the array.
private theorem idx_whole {n0 n1 k0 k1 : ℕ} {x i : (⟨2, ![n0, n1]⟩ : Shape).Idx} (h0 : k0 = 0) (h1 : k1 = 0)
    (e0 : (x 0).val = k0 * n0 + 1 * (i 0).val) (e1 : (x 1).val = k1 * n1 + 1 * (i 1).val) : x = i :=
  Shape.idx_ext₂ (by rw [e0, h0]; omega) (by rw [e1, h1]; omega)

theorem blk0_1 (c : Dev nD) (t : Fin cfg0.N) (r : Fin 2560) (k : Fin 128) : iblk0 V c 1 t (ix2 r k) = V c main_v11 (ix2 (⟨2560 * (t.val % 250) + r.val, by omega⟩ : Fin 640000) k) := by
  obtain ⟨-, h0, h1, -⟩ := idx_facts0 t
  refine congrArg (V c main_v11) (Shape.idx_ext₂ ?_ ?_)
  · show win0_1.index t 0 * 2560 + 1 * r.val = 2560 * (t.val % 250) + r.val; rw [h0]; omega
  · show win0_1.index t 1 * 128 + 1 * k.val = k.val; rw [h1]; omega

theorem blk0_2 (c : Dev nD) (t : Fin cfg0.N) (r : Fin 2560) : iblk0 V c 2 t (ix2 (0 : Fin 1) r) = V c main_v4 (ix2 (0 : Fin 1) (⟨2560 * (t.val % 250) + r.val, by omega⟩ : Fin 640000)) := by
  obtain ⟨-, -, -, h0, h1⟩ := idx_facts0 t
  refine congrArg (V c main_v4) (Shape.idx_ext₂ ?_ ?_)
  · show win0_2.index t 0 * 1 + 1 * 0 = 0; rw [h0]
  · show win0_2.index t 1 * 2560 + 1 * r.val = 2560 * (t.val % 250) + r.val; rw [h1]; omega

theorem blk0_0 (c : Dev nD) (t : Fin cfg0.N) (i : S10000x128.Idx) : iblk0 V c 0 t i = V c main_arg0 i :=
  congrArg (V c main_arg0) (idx_whole ((idx_facts0 t).1 0).1 ((idx_facts0 t).1 1).1 rfl rfl)

theorem blk0_3 (c : Dev nD) (t : Fin cfg0.N) (i : S128x128.Idx) : iblk0 V c 3 t i = V c main_arg2 i :=
  congrArg (V c main_arg2) (idx_whole ((idx_facts0 t).1 0).2.1 ((idx_facts0 t).1 1).2.1 rfl rfl)

theorem blk0_4 (c : Dev nD) (t : Fin cfg0.N) (i : S128x128.Idx) : iblk0 V c 4 t i = V c main_arg3 i :=
  congrArg (V c main_arg3) (idx_whole ((idx_facts0 t).1 0).2.2.1 ((idx_facts0 t).1 1).2.2.1 rfl rfl)

theorem blk0_5 (c : Dev nD) (t : Fin cfg0.N) (i : S1x128.Idx) : iblk0 V c 5 t i = V c main_v12 i :=
  congrArg (V c main_v12) (idx_whole ((idx_facts0 t).1 0).2.2.2 ((idx_facts0 t).1 1).2.2.2 rfl rfl)

end Cert.KernelIdeal.Frame

end
-- ==== Proof.SageSpec.lean ====
import Idealize.ShloMosaic.Lib.ValueIdx
import Idealize.ShloMosaic.PureOps.Ideal.Laws

noncomputable section

open scoped BigOperators

namespace Cert.SageSpec

open Idealize.ShloMosaic

abbrev zeroW : EReal := Ideal.ofBits .f32 0x00000000#32
abbrev oneW : EReal := Ideal.ofBits .f32 0x3F800000#32

def IsReal (x : EReal) : Prop := ∃ r : ℝ, x = (r : EReal)

def epos (j : Fin 250) (r : Fin 2560) : Fin 640000 := ⟨2560 * j.val + r.val, by omega⟩
def npos (i : Fin 10) (p : Fin 1000) : Fin 10000 := ⟨1000 * i.val + p.val, by omega⟩

def hit (dst : Fin 640000 → BitVec 32) (n : Fin 10000) (e : Fin 640000) : EReal :=
  if (dst e).toInt = (n.val : ℤ) then 1 else 0

def aggPart (msg : Fin 640000 → Fin 128 → EReal) (dst : Fin 640000 → BitVec 32) (n : Fin 10000) (k : Fin 128) (j : Fin 250) : EReal :=
  (∑ r : Fin 2560, hit dst n (epos j r) * msg (epos j r) k)
    + (∑ r : Fin 2560, hit dst n (epos j r) * (msg (epos j r) k - msg (epos j r) k))

def degPart (dst : Fin 640000 → BitVec 32) (n : Fin 10000) (j : Fin 250) : EReal :=
  ∑ r : Fin 2560, hit dst n (epos j r)

def aggK (msg : Fin 640000 → Fin 128 → EReal) (dst : Fin 640000 → BitVec 32) (n : Fin 10000) (k : Fin 128) : ℕ → EReal
  | 0 => zeroW
  | j + 1 => aggK msg dst n k j + (if h : j < 250 then aggPart msg dst n k ⟨j, h⟩ else 0)

def degK (dst : Fin 640000 → BitVec 32) (n : Fin 10000) : ℕ → EReal
  | 0 => zeroW
  | j + 1 => degK dst n j + (if h : j < 250 then degPart dst n ⟨j, h⟩ else 0)

def aggR (msg : Fin 640000 → Fin 128 → EReal) (dst : Fin 640000 → BitVec 32) (n : Fin 10000) (k : Fin 128) : EReal :=
  zeroW + ∑ e ∈ Finset.univ.filter (fun e : Fin 640000 => (dst e).toInt = (n.val : ℤ)), msg e k

def degR (dst : Fin 640000 → BitVec 32) (n : Fin 10000) : EReal :=
  zeroW + ∑ _e ∈ Finset.univ.filter (fun e : Fin 640000 => (dst e).toInt = (n.val : ℤ)), oneW

def layerOf (A : Fin 10000 → Fin 128 → EReal) (D : Fin 10000 → EReal)
    (h : Fin 10000 → Fin 128 → EReal) (Ws Wn : Fin 128 → Fin 128 → EReal) (b : Fin 128 → EReal)
    (n : Fin 10000) (d : Fin 128) : EReal :=
  max (((∑ k : Fin 128, h n k * Ws k d) + (∑ k : Fin 128, Ideal.div (A n k) (max (D n) oneW) * Wn k d)) + b d) zeroW

def layerK (h : Fin 10000 → Fin 128 → EReal) (msg : Fin 640000 → Fin 128 → EReal) (dst : Fin 640000 → BitVec 32)
    (Ws Wn : Fin 128 → Fin 128 → EReal) (b : Fin 128 → EReal) : Fin 10000 → Fin 128 → EReal :=
  layerOf (fun n k => aggK msg dst n k 250) (fun n => degK dst n 250) h Ws Wn b

def layerR (h : Fin 10000 → Fin 128 → EReal) (msg : Fin 640000 → Fin 128 → EReal) (dst : Fin 640000 → BitVec 32)
    (Ws Wn : Fin 128 → Fin 128 → EReal) (b : Fin 128 → EReal) : Fin 10000 → Fin 128 → EReal :=
  layerOf (aggR msg dst) (degR dst) h Ws Wn b

def clf (h : Fin 10000 → Fin 128 → EReal) (Wc : Fin 128 → Fin 40 → EReal) (bc : Fin 40 → EReal)
    (n : Fin 10000) (c : Fin 40) : EReal :=
  (∑ k : Fin 128, h n k * Wc k c) + bc c

theorem oneW_eq : oneW = 1 := by
  show Ideal.ofBits .f32 0x3F800000#32 = 1
  simp [Ideal.ofBits, Ideal.ieee, -EReal.coe_mul]
  norm_num

-- Chunk and place number every edge exactly once.
private theorem sum_epos (g : Fin 640000 → EReal) :
    ∑ j : Fin 250, ∑ r : Fin 2560, g (epos j r) = ∑ e : Fin 640000, g e := by
  rw [← Fintype.sum_prod_type']
  exact Fintype.sum_equiv (finProdFinEquiv (m := 250) (n := 2560)) _ _ fun _ => congrArg g (Fin.ext (Nat.add_comm _ _))

private theorem run_eq (part : Fin 250 → EReal) (f : ℕ → EReal) (h0 : f 0 = zeroW)
    (hs : ∀ j, f (j + 1) = f j + (if h : j < 250 then part ⟨j, h⟩ else 0)) :
    f 250 = zeroW + ∑ j : Fin 250, part j := by
  have key : ∀ j, f j = zeroW + ∑ i ∈ Finset.range j, (if h : i < 250 then part ⟨i, h⟩ else 0) := fun j => by
    induction j with
    | zero => simp [h0]
    | succ j ih => rw [Finset.sum_range_succ, ← add_assoc, ← ih, hs]
  rw [key 250, Finset.sum_range]
  exact congrArg (zeroW + ·) (Finset.sum_congr rfl fun i _ => dif_pos i.isLt)

private theorem sum_hit_mul (dst : Fin 640000 → BitVec 32) (n : Fin 10000) (x : Fin 640000 → EReal) :
    ∑ e : Fin 640000, hit dst n e * x e
      = ∑ e ∈ Finset.univ.filter (fun e : Fin 640000 => (dst e).toInt = (n.val : ℤ)), x e := by
  rw [Finset.sum_filter]
  exact Finset.sum_congr rfl fun e _ => by simp only [hit, ite_mul, one_mul, zero_mul]

theorem degK_eq_degR (dst : Fin 640000 → BitVec 32) (n : Fin 10000) : degK dst n 250 = degR dst n := by
  rw [run_eq (degPart dst n) (degK dst n) rfl (fun _ => rfl)]
  unfold degR degPart
  rw [sum_epos (fun e => hit dst n e), oneW_eq, Finset.sum_filter]
  rfl

-- A real message less itself is zero, so the remainders' sum vanishes.
private theorem aggPart_eq (msg : Fin 640000 → Fin 128 → EReal) (dst : Fin 640000 → BitVec 32)
    (hmsg : ∀ e k, IsReal (msg e k)) (n : Fin 10000) (k : Fin 128) (j : Fin 250) :
    aggPart msg dst n k j = ∑ r : Fin 2560, hit dst n (epos j r) * msg (epos j r) k := by
  refine (congrArg (_ + ·) (Finset.sum_eq_zero fun r _ => ?_)).trans (add_zero _)
  obtain ⟨x, hx⟩ := hmsg (epos j r) k
  rw [hx, ← EReal.coe_sub, sub_self, EReal.coe_zero, mul_zero]

theorem aggK_eq_aggR (msg : Fin 640000 → Fin 128 → EReal) (dst : Fin 640000 → BitVec 32)
    (hmsg : ∀ e k, IsReal (msg e k)) (n : Fin 10000) (k : Fin 128) : aggK msg dst n k 250 = aggR msg dst n k := by
  rw [run_eq (aggPart msg dst n k) (aggK msg dst n k) rfl (fun _ => rfl)]
  unfold aggR
  simp only [aggPart_eq msg dst hmsg]
  rw [sum_epos (fun e => hit dst n e * msg e k), sum_hit_mul]

theorem layerK_eq_layerR (h : Fin 10000 → Fin 128 → EReal) (msg : Fin 640000 → Fin 128 → EReal) (dst : Fin 640000 → BitVec 32)
    (Ws Wn : Fin 128 → Fin 128 → EReal) (b : Fin 128 → EReal) (hmsg : ∀ e k, IsReal (msg e k)) :
    layerK h msg dst Ws Wn b = layerR h msg dst Ws Wn b := by
  funext n d
  unfold layerK layerR layerOf
  simp only [aggK_eq_aggR msg dst hmsg, degK_eq_degR]

private theorem isReal_zeroW : IsReal zeroW := ⟨0, Ideal.ofBits_zero_f32⟩

private theorem isReal_add {x y : EReal} (hx : IsReal x) (hy : IsReal y) : IsReal (x + y) := by
  obtain ⟨a, rfl⟩ := hx
  obtain ⟨b, rfl⟩ := hy
  exact ⟨a + b, rfl⟩

private theorem isReal_mul {x y : EReal} (hx : IsReal x) (hy : IsReal y) : IsReal (x * y) := by
  obtain ⟨a, rfl⟩ := hx
  obtain ⟨b, rfl⟩ := hy
  exact ⟨a * b, (EReal.coe_mul a b).symm⟩

private theorem isReal_sum {ι : Type} (s : Finset ι) (f : ι → EReal) (hf : ∀ i ∈ s, IsReal (f i)) :
    IsReal (∑ i ∈ s, f i) :=
  Finset.sum_induction f IsReal (fun _ _ => isReal_add) ⟨0, rfl⟩ hf

-- The divisor max(D, 1) is the larger of a count and one: a real number that is not zero.
private theorem divisor_real (dst : Fin 640000 → BitVec 32) (n : Fin 10000) :
    ∃ y : ℝ, y ≠ 0 ∧ max (degR dst n) oneW = (y : EReal) := by
  refine ⟨max (Finset.univ.filter fun e : Fin 640000 => (dst e).toInt = (n.val : ℤ)).card 1,
    (zero_lt_one.trans_le (le_max_right _ _)).ne', ?_⟩
  unfold degR
  rw [oneW_eq, show zeroW = 0 from Ideal.ofBits_zero_f32, zero_add, Finset.sum_const, nsmul_one,
    EReal.coe_strictMono.monotone.map_max]
  rfl

theorem layerR_real (h : Fin 10000 → Fin 128 → EReal) (msg : Fin 640000 → Fin 128 → EReal) (dst : Fin 640000 → BitVec 32)
    (Ws Wn : Fin 128 → Fin 128 → EReal) (b : Fin 128 → EReal)
    (hh : ∀ n k, IsReal (h n k)) (hmsg : ∀ e k, IsReal (msg e k)) (hWs : ∀ k d, IsReal (Ws k d)) (hWn : ∀ k d, IsReal (Wn k d))
    (hb : ∀ d, IsReal (b d)) (n : Fin 10000) (d : Fin 128) : IsReal (layerR h msg dst Ws Wn b n d) := by
  obtain ⟨y, hy, hmax⟩ := divisor_real dst n
  obtain ⟨s, hs⟩ := isReal_add (isReal_add (isReal_sum _ _ fun k _ => isReal_mul (hh n k) (hWs k d))
    (isReal_sum _ _ fun k _ => isReal_mul (isReal_mul (isReal_add isReal_zeroW (isReal_sum _ _ fun e _ => hmsg e k)) ⟨1 / y, rfl⟩) (hWn k d))) (hb d)
  obtain ⟨z, hz⟩ := isReal_zeroW
  unfold layerR layerOf
  simp only [hmax, Ideal.div_coe hy]
  exact ⟨max s z, by rw [EReal.coe_strictMono.monotone.map_max, ← hs, ← hz]; rfl⟩

end Cert.SageSpec

end
-- ==== Proof.KI.SagePayload.lean ====
import proofs.«418495_j25864293056532_3_alg».proof.Proof.Gen.KernelIdeal.Skeleton
import proofs.«418495_j25864293056532_3_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.SageSpec Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

-- A rows-by-columns product into a zero accumulator, at (p, d): the sum over the one contracted coordinate.
theorem mm_apply {M K N : ℕ} {φ₁ φ₂ : FTy} (D : DotDims ⟨2, ![M, K]⟩ ⟨2, ![K, N]⟩ ⟨2, ![M, N]⟩) (hD : D = DotDims.plain M K N)
    (x : FVec Ideal ⟨2, ![M, K]⟩ φ₁) (w : FVec Ideal ⟨2, ![K, N]⟩ φ₂) (p : Fin M) (d : Fin N) :
    matmul D none x w (constant (F := Ideal) ⟨2, ![M, N]⟩ .f32 0x00000000#32) (ix2 p d) = ∑ k : Fin K, x (ix2 p k) * w (ix2 k d) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  congr 2 <;> funext a <;> refine Fin.ext ?_ <;> match a with
    | ⟨0, _⟩ => first | rfl | exact hk
    | ⟨1, _⟩ => first | rfl | exact hk

theorem pay3_apply (p : Fin 1000) (k : Fin 128) : k0_pay3 (F := Ideal) (ix2 p k) = zeroW := by
  unfold k0_pay3
  rw [shapeCast_self]
  rfl

theorem pay4_apply (p : Fin 1000) : k0_pay4 (F := Ideal) (ix2 p (0 : Fin 1)) = zeroW := by
  unfold k0_pay4
  rw [shapeCast_self]
  rfl

def maskAt (i : grid0.Coords) (x2 : Vec Ideal S1x2560 .i32) (p : Fin 1000) (r : Fin 2560) : EReal :=
  if BitVec.ofNat 32 (i 0).val * 1000#32 + BitVec.ofNat 32 p.val = x2 (ix2 (0 : Fin 1) r) then 1 else 0

theorem cmpEq_val (A B : BitVec 32) :
    ((((IntOp.cmpi .eq A B).setWidth 32).toInt : ℝ) : EReal) = if A = B then 1 else 0 := by
  unfold IntOp.cmpi
  by_cases h : A = B
  · simp [h]
  · simp [h, beq_eq_false_iff_ne.mpr h]

theorem maskF_apply (i : grid0.Coords) (x2 : Vec Ideal S1x2560 .i32) (p : Fin 1000) (r : Fin 2560) :
    (sitofp .f32 (extui 32 (k0_pay5 (F := Ideal) i x2) natLt_1_32) : FVec Ideal S1000x2560 .f32) (ix2 p r) = maskAt i x2 p r := by
  rw [sitofp_apply, extui_apply]
  unfold k0_pay5
  simp only [cmpi, addi]
  rw [shapeCast_shapeCast, broadcastTo_1b_ab_apply, iota_single_apply]
  exact cmpEq_val _ _

theorem laneSum_apply (src : FVec Ideal S1000x2560 .f32) (h : S1000x2560.Reduces [1] S1000) (hφ : FKind.Formats .f32)
    (hacc : (0x00000000#32 : BitVec 32) = 0x00000000#32) (p : Fin 1000) :
    multiReduction .add [1] S1000 src 0x00000000#32 h hφ hacc (ix1 p) = ∑ r : Fin 2560, src (ix2 p r) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

theorem pay6_apply (i : grid0.Coords) (x2 : Vec Ideal S1x2560 .i32) (x1 : Vec Ideal S2560x128 .f32) (xs0 : Vec Ideal S1000x128 .f32) (p : Fin 1000) (k : Fin 128) :
    k0_pay6 (F := Ideal) i x2 x1 xs0 (ix2 p k)
      = xs0 (ix2 p k) + ((∑ r : Fin 2560, maskAt i x2 p r * x1 (ix2 r k)) + (∑ r : Fin 2560, maskAt i x2 p r * (x1 (ix2 r k) - x1 (ix2 r k)))) := by
  unfold k0_pay6
  rw [shapeCast_self, shapeCast_self]
  simp only [addf_apply]
  rw [mm_apply, mm_apply]
  · refine congrArg (xs0 (ix2 p k) + ·) (congrArg₂ (· + ·) (Finset.sum_congr rfl fun r _ => ?_) (Finset.sum_congr rfl fun r _ => ?_))
    · exact congrArg (· * x1 (ix2 r k)) (maskF_apply i x2 p r)
    · exact congrArg (· * (x1 (ix2 r k) - x1 (ix2 r k))) (maskF_apply i x2 p r)
  all_goals rfl

theorem pay71_apply (i : grid0.Coords) (x2 : Vec Ideal S1x2560 .i32) (xs1 : Vec Ideal S1000x1 .f32) (p : Fin 1000) :
    k0_pay1 (k0_pay7 (F := Ideal) i x2 xs1) (ix2 p (0 : Fin 1)) = xs1 (ix2 p (0 : Fin 1)) + ∑ r : Fin 2560, maskAt i x2 p r := by
  unfold k0_pay1 k0_pay7
  rw [shapeCast_self]
  simp only [addf_apply]
  rw [shapeCast_a_a1_apply]
  refine congrArg (xs1 (ix2 p (0 : Fin 1)) + ·) ((laneSum_apply _ _ _ _ p).trans ?_)
  exact Finset.sum_congr rfl fun r _ => maskF_apply i x2 p r

-- Below 2 ^ 31 nothing wraps, so the words agree exactly when the numbers do.
theorem word_eq_iff (a p : ℕ) (ha : a < 10) (hp : p < 1000) (w : BitVec 32) :
    (BitVec.ofNat 32 a * 1000#32 + BitVec.ofNat 32 p = w) ↔ w.toInt = ((1000 * a + p : ℕ) : ℤ) := by
  have hA : (BitVec.ofNat 32 a * 1000#32 + BitVec.ofNat 32 p).toInt = ((1000 * a + p : ℕ) : ℤ) := by
    rw [BitVec.toInt_eq_toNat_cond]
    simp only [BitVec.toNat_add, BitVec.toNat_mul, BitVec.toNat_ofNat]
    omega
  rw [← hA, BitVec.toInt_inj]
  exact eq_comm

theorem maskAt_eq_hit (i : grid0.Coords) (x2 : Vec Ideal S1x2560 .i32) (dst : Fin 640000 → BitVec 32) (j : Fin 250)
    (hx2 : ∀ r : Fin 2560, x2 (ix2 (0 : Fin 1) r) = dst (epos j r)) (p : Fin 1000) (r : Fin 2560) :
    maskAt i x2 p r = hit dst (npos ⟨(i 0).val, (i 0).isLt⟩ p) (epos j r) := by
  unfold maskAt hit
  rw [hx2 r]
  exact if_congr (word_eq_iff (i 0).val p.val (i 0).isLt p.isLt _) rfl rfl

theorem pay3_apply1 (p : Fin 1000) (k : Fin 128) : k1_pay3 (F := Ideal) (ix2 p k) = zeroW := pay3_apply p k

theorem pay4_apply1 (p : Fin 1000) : k1_pay4 (F := Ideal) (ix2 p (0 : Fin 1)) = zeroW := pay4_apply p

theorem pay6_apply1 (i : grid1.Coords) (x2 : Vec Ideal S1x2560 .i32) (x1 : Vec Ideal S2560x128 .f32) (xs0 : Vec Ideal S1000x128 .f32) (p : Fin 1000) (k : Fin 128) :
    k1_pay6 (F := Ideal) i x2 x1 xs0 (ix2 p k)
      = xs0 (ix2 p k) + ((∑ r : Fin 2560, maskAt i x2 p r * x1 (ix2 r k)) + (∑ r : Fin 2560, maskAt i x2 p r * (x1 (ix2 r k) - x1 (ix2 r k)))) :=
  pay6_apply i x2 x1 xs0 p k

theorem pay71_apply1 (i : grid1.Coords) (x2 : Vec Ideal S1x2560 .i32) (xs1 : Vec Ideal S1000x1 .f32) (p : Fin 1000) :
    k1_pay1 (k1_pay7 (F := Ideal) i x2 xs1) (ix2 p (0 : Fin 1)) = xs1 (ix2 p (0 : Fin 1)) + ∑ r : Fin 2560, maskAt i x2 p r :=
  pay71_apply i x2 xs1 p

theorem pay2_apply (hrows agg : Vec Ideal S1000x128 .f32) (deg : Vec Ideal S1000x1 .f32) (ws wn : Vec Ideal S128x128 .f32) (b : Vec Ideal S1x128 .f32) (p : Fin 1000) (d : Fin 128) :
    k0_pay2 (F := Ideal) hrows agg deg ws wn b (ix2 p d)
      = max (((∑ k : Fin 128, hrows (ix2 p k) * ws (ix2 k d)) + (∑ k : Fin 128, Ideal.div (agg (ix2 p k)) (max (deg (ix2 p (0 : Fin 1))) oneW) * wn (ix2 k d))) + b (ix2 (0 : Fin 1) d)) zeroW := by
  unfold k0_pay2
  simp only [maximumf_apply, addf_apply, broadcast_apply]
  rw [mm_apply, mm_apply, broadcastTo_1b_ab_apply, shapeCast_self]
  · simp only [divf_apply, maximumf_apply, broadcast_apply, broadcastTo_a1_ab_apply]
    rfl
  all_goals rfl

theorem pay2_apply1 (hrows agg : Vec Ideal S1000x128 .f32) (deg : Vec Ideal S1000x1 .f32) (ws wn : Vec Ideal S128x128 .f32) (b : Vec Ideal S1x128 .f32) (p : Fin 1000) (d : Fin 128) :
    k1_pay2 (F := Ideal) hrows agg deg ws wn b (ix2 p d)
      = max (((∑ k : Fin 128, hrows (ix2 p k) * ws (ix2 k d)) + (∑ k : Fin 128, Ideal.div (agg (ix2 p k)) (max (deg (ix2 p (0 : Fin 1))) oneW) * wn (ix2 k d))) + b (ix2 (0 : Fin 1) d)) zeroW := by
  unfold k1_pay2
  rw [shapeCast_self hrows]
  exact pay2_apply hrows agg deg ws wn b p d

theorem clf_apply (v0 : Vec Ideal S1000x128 .f32) (v2 : Vec Ideal S128x40 .f32) (v4 : Vec Ideal S1x40 .f32) (p : Fin 1000) (c : Fin 40) :
    k2_pay1 (F := Ideal) v0 v2 v4 (ix2 p c) = (∑ k : Fin 128, v0 (ix2 p k) * v2 (ix2 k c)) + v4 (ix2 (0 : Fin 1) c) := by
  unfold k2_pay1
  simp only [addf_apply]
  rw [mm_apply, broadcastTo_1b_ab_apply, shapeCast_self, shapeCast_self]
  all_goals rfl

end Cert.KernelIdeal.Payload

end
-- ==== Proof.SageGlue.lean ====
import proofs.«418495_j25864293056532_3_alg».proof.Proof.SageSpec

noncomputable section

open scoped BigOperators

namespace Cert.SageSpec

open Idealize.ShloMosaic Idealize.ShloMosaic.ValueIdx

def mat {α : Type} {a b : ℕ} (x : (⟨2, ![a, b]⟩ : Shape).Idx → α) : Fin a → Fin b → α := fun p q => x (ix2 p q)

def vec {α : Type} {a : ℕ} (x : (⟨1, ![a]⟩ : Shape).Idx → α) : Fin a → α := fun p => x (ix1 p)

def arr2 {α : Type} {a b : ℕ} (f : Fin a → Fin b → α) : (⟨2, ![a, b]⟩ : Shape).Idx → α := fun i => f (i 0) (i 1)

theorem arr2_ix2 {α : Type} {a b : ℕ} (f : Fin a → Fin b → α) (p : Fin a) (q : Fin b) : arr2 f (ix2 p q) = f p q := rfl

def srcOf (ei : (⟨2, ![2, 640000]⟩ : Shape).Idx → BitVec 32) : Fin 640000 → BitVec 32 := fun e => ei (ix2 (0 : Fin 2) e)

def dstOf (ei : (⟨2, ![2, 640000]⟩ : Shape).Idx → BitVec 32) : Fin 640000 → BitVec 32 := fun e => ei (ix2 (1 : Fin 2) e)

def wrapW (x : BitVec 32) : BitVec 32 := if x.slt 0#32 then x + 10000#32 else x

def rowOf (src : Fin 640000 → BitVec 32) (e : Fin 640000) : Fin 10000 :=
  ⟨min (wrapW (src e)).toInt.toNat 9999, by omega⟩

def gatherRows (h : Fin 10000 → Fin 128 → EReal) (src : Fin 640000 → BitVec 32) : Fin 640000 → Fin 128 → EReal :=
  fun e k => h (rowOf src e) k

theorem gatherRows_real (h : Fin 10000 → Fin 128 → EReal) (src : Fin 640000 → BitVec 32) (hh : ∀ n k, IsReal (h n k)) :
    ∀ e k, IsReal (gatherRows h src e k) := fun e k => hh _ k

def sageR (h : Fin 10000 → Fin 128 → EReal) (ei : (⟨2, ![2, 640000]⟩ : Shape).Idx → BitVec 32)
    (Ws Wn : Fin 128 → Fin 128 → EReal) (b : Fin 128 → EReal) : Fin 10000 → Fin 128 → EReal :=
  layerR h (gatherRows h (srcOf ei)) (dstOf ei) Ws Wn b

def sageK (h : Fin 10000 → Fin 128 → EReal) (ei : (⟨2, ![2, 640000]⟩ : Shape).Idx → BitVec 32)
    (Ws Wn : Fin 128 → Fin 128 → EReal) (b : Fin 128 → EReal) : Fin 10000 → Fin 128 → EReal :=
  layerK h (gatherRows h (srcOf ei)) (dstOf ei) Ws Wn b

theorem sageK_eq_sageR (h : Fin 10000 → Fin 128 → EReal) (ei : (⟨2, ![2, 640000]⟩ : Shape).Idx → BitVec 32)
    (Ws Wn : Fin 128 → Fin 128 → EReal) (b : Fin 128 → EReal) (hh : ∀ n k, IsReal (h n k)) :
    sageK h ei Ws Wn b = sageR h ei Ws Wn b :=
  layerK_eq_layerR h _ _ Ws Wn b (gatherRows_real h _ hh)

theorem sageR_real (h : Fin 10000 → Fin 128 → EReal) (ei : (⟨2, ![2, 640000]⟩ : Shape).Idx → BitVec 32)
    (Ws Wn : Fin 128 → Fin 128 → EReal) (b : Fin 128 → EReal)
    (hh : ∀ n k, IsReal (h n k)) (hWs : ∀ k d, IsReal (Ws k d)) (hWn : ∀ k d, IsReal (Wn k d)) (hb : ∀ d, IsReal (b d)) :
    ∀ n d, IsReal (sageR h ei Ws Wn b n d) :=
  layerR_real h _ _ Ws Wn b hh (gatherRows_real h _ hh) hWs hWn hb

def netR (x : (⟨2, ![10000, 128]⟩ : Shape).Idx → EReal) (ei : (⟨2, ![2, 640000]⟩ : Shape).Idx → BitVec 32)
    (Ws1 Wn1 : (⟨2, ![128, 128]⟩ : Shape).Idx → EReal) (b1 : (⟨1, ![128]⟩ : Shape).Idx → EReal)
    (Ws2 Wn2 : (⟨2, ![128, 128]⟩ : Shape).Idx → EReal) (b2 : (⟨1, ![128]⟩ : Shape).Idx → EReal)
    (Wc : (⟨2, ![128, 40]⟩ : Shape).Idx → EReal) (bc : (⟨1, ![40]⟩ : Shape).Idx → EReal) :
    (⟨2, ![10000, 40]⟩ : Shape).Idx → EReal :=
  arr2 (clf (sageR (sageR (mat x) ei (mat Ws1) (mat Wn1) (vec b1)) ei (mat Ws2) (mat Wn2) (vec b2)) (mat Wc) (vec bc))

def netK (x : (⟨2, ![10000, 128]⟩ : Shape).Idx → EReal) (ei : (⟨2, ![2, 640000]⟩ : Shape).Idx → BitVec 32)
    (Ws1 Wn1 : (⟨2, ![128, 128]⟩ : Shape).Idx → EReal) (b1 : (⟨1, ![128]⟩ : Shape).Idx → EReal)
    (Ws2 Wn2 : (⟨2, ![128, 128]⟩ : Shape).Idx → EReal) (b2 : (⟨1, ![128]⟩ : Shape).Idx → EReal)
    (Wc : (⟨2, ![128, 40]⟩ : Shape).Idx → EReal) (bc : (⟨1, ![40]⟩ : Shape).Idx → EReal) :
    (⟨2, ![10000, 40]⟩ : Shape).Idx → EReal :=
  arr2 (clf (sageK (sageK (mat x) ei (mat Ws1) (mat Wn1) (vec b1)) ei (mat Ws2) (mat Wn2) (vec b2)) (mat Wc) (vec bc))

theorem netK_eq_netR (x : (⟨2, ![10000, 128]⟩ : Shape).Idx → EReal) (ei : (⟨2, ![2, 640000]⟩ : Shape).Idx → BitVec 32)
    (Ws1 Wn1 : (⟨2, ![128, 128]⟩ : Shape).Idx → EReal) (b1 : (⟨1, ![128]⟩ : Shape).Idx → EReal)
    (Ws2 Wn2 : (⟨2, ![128, 128]⟩ : Shape).Idx → EReal) (b2 : (⟨1, ![128]⟩ : Shape).Idx → EReal)
    (Wc : (⟨2, ![128, 40]⟩ : Shape).Idx → EReal) (bc : (⟨1, ![40]⟩ : Shape).Idx → EReal)
    (hx : ∀ i, IsReal (x i)) (hWs1 : ∀ i, IsReal (Ws1 i)) (hWn1 : ∀ i, IsReal (Wn1 i)) (hb1 : ∀ i, IsReal (b1 i)) :
    netK x ei Ws1 Wn1 b1 Ws2 Wn2 b2 Wc bc = netR x ei Ws1 Wn1 b1 Ws2 Wn2 b2 Wc bc := by
  have hx' : ∀ n k, IsReal (mat x n k) := fun n k => hx _
  unfold netK netR
  rw [sageK_eq_sageR (mat x) ei _ _ _ hx', sageK_eq_sageR _ ei _ _ _
    (sageR_real (mat x) ei (mat Ws1) (mat Wn1) (vec b1) hx' (fun _ _ => hWs1 _) (fun _ _ => hWn1 _) fun _ => hb1 _)]

end Cert.SageSpec

end
-- ==== Proof.KI.Sage0Value.lean ====
import proofs.«418495_j25864293056532_3_alg».proof.Proof.KI.Sage0Frame
import proofs.«418495_j25864293056532_3_alg».proof.Proof.KI.Sage0Blocks
import proofs.«418495_j25864293056532_3_alg».proof.Proof.KI.SagePayload
import proofs.«418495_j25864293056532_3_alg».proof.Proof.SageGlue
import Idealize.ShloMosaic.Lib.Pipeline.Value
import Idealize.ShloMosaic.Lib.ValueIdx

noncomputable section

namespace Cert.KernelIdeal.Frame

open Cert.KernelIdeal Cert.KernelIdeal.Gen
open Idealize.ShloMosaic Idealize.ShloMosaic.TcCoe Idealize.ShloMosaic.Tactic
open Cert.SageSpec Idealize.ShloMosaic.ValueIdx

namespace Sage0V

section pieces
variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

theorem read_unread_sc0 (h : (scM0_0 : Memref sig .tc .vmem S1000x128 .f32).IsWhole) (X : Vec F S1000x128 .f32) :
    View.read (Elt F) (View.whole cc0_scratch0) (h.unread X) = X := h.read_unread X
theorem read_unread_sc1 (h : (scM0_1 : Memref sig .tc .vmem S1000x1 .f32).IsWhole) (X : Vec F S1000x1 .f32) :
    View.read (Elt F) (View.whole cc0_scratch1) (h.unread X) = X := h.read_unread X

theorem ld0 {d : Fin 2 → ℕ} {e : EltTy} (inb) (X : (⟨2, d⟩ : Shape).Idx → Elt F e) : View.ld X (Rect.unit (s := ⟨2, d⟩) ![0, 0] d inb) = X :=
  View.ld_unit_zero hz2 inb X

abbrev rows0 (c : Dev nD) (t : Fin cfg0.N) (hc1 : cond0_1 (grid0.coords t)) : Vec F S1000x128 .f32 :=
  View.ld (iblk0 V c 0 t) (Rect.unit (s := S10000x128) (k0_off1 (grid0.coords t)) S1000x128.size (k0_off1_inb (grid0.coords t) hc1))

-- At a node block's first chunk the totals are reset before the chunk's shares are added.
theorem accs_A (c : Dev nD) (t : Fin cfg0.N) (h0 : t.val % 250 = 0) (h1 : ¬t.val % 250 = 249) :
    (outsAt0 V c t.val t.isLt).2.1 = k0_pay6 (grid0.coords t) (iblk0 V c 2 t) (iblk0 V c 1 t) (k0_pay3 (F := F))
      ∧ (outsAt0 V c t.val t.isLt).2.2 = k0_pay1 (k0_pay7 (grid0.coords t) (iblk0 V c 2 t) (k0_pay4 (F := F))) := by
  rw [outsAt0_A V c t h0 h1]
  unfold step0_A sout0_A_0 sout0_A_1
  dsimp only
  rw [View.read_writes_eq_canon _ _ _ (scover0_A_0 V c t _ _), View.read_writes_eq_canon _ _ _ (scover0_A_1 V c t _ _)]
  unfold run0_A kernelRun0_A
  dsimp only
  sl_unfold_words
  rw [View.canon_cons_unit_zero (S := S1000x128) hz2, View.canon_cons_unit_zero (S := S1000x1) hz2]
  refine ⟨?_, ?_⟩ <;> simp only [View.readAt_eq_ld, Memref.IsWhole.read_unread, ld0, View.readCov_unit_zero (S := S1000x128) _ hz2, View.readCov_unit_zero (S := S1000x1) _ hz2]

-- At any other chunk the chunk's shares are added to what the point before left.
theorem accs_B (c : Dev nD) (t : Fin cfg0.N) (h0 : ¬t.val % 250 = 0) (h1 : ¬t.val % 250 = 249) :
    (outsAt0 V c t.val t.isLt).2.1 = k0_pay6 (grid0.coords t) (iblk0 V c 2 t) (iblk0 V c 1 t) (outsAt0 V c (t.val - 1) (Nat.lt_of_le_of_lt (Nat.sub_le _ _) t.isLt)).2.1
      ∧ (outsAt0 V c t.val t.isLt).2.2 = k0_pay1 (k0_pay7 (grid0.coords t) (iblk0 V c 2 t) (outsAt0 V c (t.val - 1) (Nat.lt_of_le_of_lt (Nat.sub_le _ _) t.isLt)).2.2) := by
  rw [outsAt0_B V c t h0 h1]
  unfold step0_B sout0_B_0 sout0_B_1
  dsimp only
  rw [View.read_writes_eq_canon _ _ _ (scover0_B_0 V c t _ _ _ _), View.read_writes_eq_canon _ _ _ (scover0_B_1 V c t _ _ _ _)]
  unfold run0_B kernelRun0_B
  dsimp only
  sl_unfold_words
  rw [View.canon_unit_zero (S := S1000x128) hz2, View.canon_unit_zero (S := S1000x1) hz2]
  refine ⟨?_, ?_⟩ <;> simp only [View.readAt_eq_ld, Memref.IsWhole.read_unread, read_unread_sc0, read_unread_sc1, ld0]

-- The last chunk also stores the node block's result, computed from the totals it has just completed.
theorem accs_C (c : Dev nD) (t : Fin cfg0.N) (h0 : ¬t.val % 250 = 0) (h1 : t.val % 250 = 249) :
    ((outsAt0 V c t.val t.isLt).2.1 = k0_pay6 (grid0.coords t) (iblk0 V c 2 t) (iblk0 V c 1 t) (outsAt0 V c (t.val - 1) (Nat.lt_of_le_of_lt (Nat.sub_le _ _) t.isLt)).2.1
      ∧ (outsAt0 V c t.val t.isLt).2.2 = k0_pay1 (k0_pay7 (grid0.coords t) (iblk0 V c 2 t) (outsAt0 V c (t.val - 1) (Nat.lt_of_le_of_lt (Nat.sub_le _ _) t.isLt)).2.2))
      ∧ (outsAt0 V c t.val t.isLt).1 = k0_pay2 (rows0 V c t ((hcond0_1 t).mpr h1)) (outsAt0 V c t.val t.isLt).2.1 (outsAt0 V c t.val t.isLt).2.2 (iblk0 V c 3 t) (iblk0 V c 4 t) (iblk0 V c 5 t) := by
  rw [outsAt0_C V c t h0 h1]
  unfold step0_C sout0_C_0 sout0_C_1 out0_C_6
  dsimp only
  rw [View.read_writes_eq_canon _ _ _ (scover0_C_0 V c t _ _ _ _), View.read_writes_eq_canon _ _ _ (scover0_C_1 V c t _ _ _ _), View.read_writes_eq_canon _ _ _ (cover0_C_6 V c t _ _ _ _)]
  unfold run0_C kernelRun0_C
  dsimp only
  sl_unfold_words
  rw [View.canon_unit_zero (S := S1000x128) hz2, View.canon_unit_zero (S := S1000x1) hz2, View.canon_unit_zero (S := S1000x128) hz2]
  refine ⟨⟨?_, ?_⟩, ?_⟩ <;> simp only [View.readAt_eq_ld, Memref.IsWhole.read_unread, read_unread_sc0, read_unread_sc1, ld0, View.readCov_unit_zero (S := S1000x128) _ hz2, View.readCov_unit_zero (S := S1000x1) _ hz2] <;> rfl

end pieces

section value
open Cert.KernelIdeal.Payload
variable (V : (c : Dev nD) → (b : Ref sig .tc) → Buf (Elt Ideal) ((c : Thread nD τ).loc b))

abbrev msgF0 (c : Dev nD) : Fin 640000 → Fin 128 → EReal := mat (V c main_v11)
abbrev dstF0 (c : Dev nD) : Fin 640000 → BitVec 32 := fun e => V c main_v4 (ix2 (0 : Fin 1) e)

abbrev nb0 (t : Fin cfg0.N) : Fin 10 := ⟨(grid0.coords t 0).val, (grid0.coords t 0).isLt⟩
theorem hch0 (t : Fin cfg0.N) : t.val % 250 < 250 := Nat.mod_lt _ (by decide)
abbrev ch0 (t : Fin cfg0.N) : Fin 250 := ⟨t.val % 250, hch0 t⟩

theorem grid_facts0 : ∀ t : Fin cfg0.N, (grid0.coords t 0).val = t.val / 250
    ∧ win0_6.index t (0 : Fin 2) = t.val / 250 ∧ win0_6.index t (1 : Fin 2) = 0
    ∧ k0_off1 (grid0.coords t) (0 : Fin 2) = 1000 * (t.val / 250) ∧ k0_off1 (grid0.coords t) (1 : Fin 2) = 0 :=
  (by decide +kernel : ∀ t : Fin grid0.N, _)

theorem aggK_step0 (msg : Fin 640000 → Fin 128 → EReal) (dst : Fin 640000 → BitVec 32) (n : Fin 10000) (k : Fin 128) (j : ℕ) (hj : j < 250) :
    aggK msg dst n k (j + 1) = aggK msg dst n k j + aggPart msg dst n k ⟨j, hj⟩ := by
  rw [aggK, dif_pos hj]

theorem degK_step0 (dst : Fin 640000 → BitVec 32) (n : Fin 10000) (j : ℕ) (hj : j < 250) :
    degK dst n (j + 1) = degK dst n j + degPart dst n ⟨j, hj⟩ := by
  rw [degK, dif_pos hj]

abbrev Acc0 (c : Dev nD) (i : Fin 10) (j : ℕ) (xs0 : Vec Ideal S1000x128 .f32) (xs1 : Vec Ideal S1000x1 .f32) : Prop :=
  (∀ (p : Fin 1000) (k : Fin 128), xs0 (ix2 p k) = aggK (msgF0 V c) (dstF0 V c) (npos i p) k j)
    ∧ ∀ p : Fin 1000, xs1 (ix2 p (0 : Fin 1)) = degK (dstF0 V c) (npos i p) j

-- Totals over the chunks before a point's own, plus that chunk's shares, are the totals up to and including it.
theorem acc_of (c : Dev nD) (t : Fin cfg0.N) (i : Fin 10) (j : ℕ) (hi : nb0 t = i) (hj : t.val % 250 = j) (xs0 : Vec Ideal S1000x128 .f32) (xs1 : Vec Ideal S1000x1 .f32)
    (e : (outsAt0 V c t.val t.isLt).2.1 = k0_pay6 (grid0.coords t) (iblk0 V c 2 t) (iblk0 V c 1 t) xs0
      ∧ (outsAt0 V c t.val t.isLt).2.2 = k0_pay1 (k0_pay7 (grid0.coords t) (iblk0 V c 2 t) xs1))
    (h : Acc0 V c i j xs0 xs1) :
    Acc0 V c (nb0 t) (t.val % 250 + 1) (outsAt0 V c t.val t.isLt).2.1 (outsAt0 V c t.val t.isLt).2.2 := by
  subst hi hj
  rw [e.1, e.2]
  have hm := maskAt_eq_hit (grid0.coords t) (iblk0 V c 2 t) (dstF0 V c) (ch0 t) (fun r => blk0_2 V c t r)
  refine ⟨fun p k => ?_, fun p => ?_⟩
  · refine (pay6_apply (grid0.coords t) (iblk0 V c 2 t) (iblk0 V c 1 t) xs0 p k).trans ?_
    have hx : ∀ r : Fin 2560, iblk0 V c 1 t (ix2 r k) = msgF0 V c (epos (ch0 t) r) k := fun r => blk0_1 V c t r k
    rw [h.1 p k, aggK_step0 _ _ _ _ _ (hch0 t)]
    unfold aggPart
    simp only [hm, hx]
  · refine (pay71_apply (grid0.coords t) (iblk0 V c 2 t) xs1 p).trans ?_
    rw [h.2 p, degK_step0 _ _ _ (hch0 t)]
    unfold degPart
    simp only [hm]

theorem acc_A (c : Dev nD) (t : Fin cfg0.N) (h0 : t.val % 250 = 0) :
    Acc0 V c (nb0 t) (t.val % 250 + 1) (outsAt0 V c t.val t.isLt).2.1 (outsAt0 V c t.val t.isLt).2.2 :=
  acc_of V c t _ _ rfl h0 _ _ (accs_A V c t h0 (by omega)) ⟨fun p k => pay3_apply p k, fun p => pay4_apply p⟩

theorem acc0_inv (c : Dev nD) : ∀ (n : ℕ) (t : Fin cfg0.N), t.val = n →
    Acc0 V c (nb0 t) (t.val % 250 + 1) (outsAt0 V c t.val t.isLt).2.1 (outsAt0 V c t.val t.isLt).2.2 := by
  intro n
  induction n with
  | zero => exact fun t ht => acc_A V c t (by rw [ht])
  | succ n ih =>
    intro t ht
    by_cases h0 : t.val % 250 = 0
    · exact acc_A V c t h0
    · have hlt : t.val - 1 < cfg0.N := Nat.lt_of_le_of_lt (Nat.sub_le _ _) t.isLt
      have hp := ih ⟨t.val - 1, hlt⟩ (by show t.val - 1 = n; omega)
      have hnb : nb0 t = nb0 ⟨t.val - 1, hlt⟩ := by
        apply Fin.ext
        show (grid0.coords t 0).val = (grid0.coords ⟨t.val - 1, hlt⟩ 0).val
        rw [(grid_facts0 ⟨t.val - 1, hlt⟩).1, (grid_facts0 t).1]
        show t.val / 250 = (t.val - 1) / 250
        omega
      have hj : t.val % 250 = (t.val - 1) % 250 + 1 := by omega
      by_cases h1 : t.val % 250 = 249
      · exact acc_of V c t _ _ hnb hj _ _ (accs_C V c t h0 h1).1 hp
      · exact acc_of V c t _ _ hnb hj _ _ (accs_B V c t h0 h1) hp

theorem rows0_apply (c : Dev nD) (t : Fin cfg0.N) (hc1 : cond0_1 (grid0.coords t)) (p : Fin 1000) (k : Fin 128) :
    rows0 V c t hc1 (ix2 p k) = V c main_arg0 (ix2 (npos (nb0 t) p) k) := by
  obtain ⟨g0, -, -, o0, o1⟩ := grid_facts0 t
  refine (blk0_0 V c t ((Rect.unit (s := S10000x128) (k0_off1 (grid0.coords t)) S1000x128.size (k0_off1_inb (grid0.coords t) hc1)).idx (ix2 p k))).trans ?_
  refine congrArg (V c main_arg0) (Shape.idx_ext₂ ?_ ?_)
  · show k0_off1 (grid0.coords t) 0 + 1 * p.val = 1000 * (grid0.coords t 0).val + p.val; rw [o0, g0]; omega
  · show k0_off1 (grid0.coords t) 1 + 1 * k.val = k.val; rw [o1]; omega

-- The stored result at row p is the layer at the node block's row p: the totals are complete at the last chunk.
theorem out0_entry (c : Dev nD) (t : Fin cfg0.N) (h0 : ¬t.val % 250 = 0) (h1 : t.val % 250 = 249) (p : Fin 1000) (d : Fin 128) :
    (outsAt0 V c t.val t.isLt).1 (ix2 p d) = layerK (mat (V c main_arg0)) (msgF0 V c) (dstF0 V c) (mat (V c main_arg2)) (mat (V c main_arg3)) (fun d' => V c main_v12 (ix2 (0 : Fin 1) d')) (npos (nb0 t) p) d := by
  obtain ⟨iA, iD⟩ := acc0_inv V c t.val t rfl
  rw [h1] at iA iD
  rw [(accs_C V c t h0 h1).2]
  refine (pay2_apply _ _ _ _ _ _ p d).trans ?_
  unfold layerK layerOf mat
  simp only [rows0_apply V c t _ p, iA, iD, blk0_3 V c t, blk0_4 V c t, blk0_5 V c t, Nat.reduceAdd]

abbrev G0 (c : Dev nD) : S10000x128.Idx → EReal := arr2 (layerK (mat (V c main_arg0)) (msgF0 V c) (dstF0 V c) (mat (V c main_arg2)) (mat (V c main_arg3)) (fun d' => V c main_v12 (ix2 (0 : Fin 1) d')))

theorem oblk0_emb (t : Fin cfg0.N) (y : S1000x128.Idx) :
    ((cfg0.win 6).blk t).view.emb y = (ix2 (npos (nb0 t) (y 0)) (y 1) : S10000x128.Idx) := by
  obtain ⟨g0, w0, w1, -, -⟩ := grid_facts0 t
  refine Shape.idx_ext₂ ?_ ?_
  · show win0_6.index t 0 * 1000 + 1 * (y 0).val = 1000 * (grid0.coords t 0).val + (y 0).val; rw [w0, g0]; omega
  · show win0_6.index t 1 * 128 + 1 * (y 1).val = (y 1).val; rw [w1]; omega

theorem flushed0_eq (c : Dev nD) (t : Fin cfg0.N) (hf : (cfg0.win 6).flush t = true) :
    (dat0 V c).flushed 6 t = ((cfg0.win 6).blk t).view.read (Elt Ideal) (G0 V c) := by
  have h1 : t.val % 250 = 249 := (flush0_6 t).mp hf
  show (cfg0.win 6).cut (grid0.coords t) ((dat0 V c).after 6 t) = _
  rw [after0_6]
  funext y
  show (outsAt0 V c t.val t.isLt).1 y = G0 V c (((cfg0.win 6).blk t).view.emb y)
  rw [oblk0_emb t y]
  exact (congrArg (outsAt0 V c t.val t.isLt).1 (eq_ix2 y)).trans (out0_entry V c t (by omega) h1 (y 0) (y 1))

-- Every row of the array lies in the block that the last chunk of its node block stores.
theorem cover0 (i : S10000x128.Idx) : ∃ t : Fin cfg0.N, (cfg0.win 6).flush t = true ∧ i ∈ ((cfg0.win 6).blk t).view.set := by
  have hi0 : (i 0).val < 10000 := (i 0).isLt
  have ht : 250 * ((i 0).val / 1000) + 249 < cfg0.N := by rw [show cfg0.N = 2500 from N_0]; omega
  refine ⟨⟨_, ht⟩, (flush0_6 _).mpr (by show (250 * ((i 0).val / 1000) + 249) % 250 = 249; omega), ?_⟩
  have e : ((cfg0.win 6).blk ⟨_, ht⟩).view.emb (ix2 ⟨(i 0).val % 1000, Nat.mod_lt _ (by decide)⟩ (i 1)) = i := by
    rw [oblk0_emb]
    refine Shape.idx_ext₂ ?_ rfl
    show 1000 * (grid0.coords ⟨_, ht⟩ 0).val + (i 0).val % 1000 = (i 0).val
    rw [(grid_facts0 ⟨_, ht⟩).1]
    show 1000 * ((250 * ((i 0).val / 1000) + 249) / 250) + (i 0).val % 1000 = (i 0).val
    omega
  have h := ((cfg0.win 6).blk ⟨_, ht⟩).view.emb_mem_set (ix2 ⟨(i 0).val % 1000, Nat.mod_lt _ (by decide)⟩ (i 1))
  rwa [e] at h

end value

end Sage0V

theorem sage0_arr (V : (c : Dev nD) → (b : Ref sig .tc) → Buf (Elt Ideal) ((c : Thread nD τ).loc b)) (c : Dev nD) :
    (dat0 (F := Ideal) V c).arrAt 6 cfg0.N
      = arr2 (layerK (mat (V c main_arg0)) (mat (V c main_v11)) (fun e => V c main_v4 (ix2 (0 : Fin 1) e)) (mat (V c main_arg2)) (mat (V c main_arg3)) (fun d => V c main_v12 (ix2 (0 : Fin 1) d))) :=
  (dat0 V c).arrAt_eq_of_cover 6 (Sage0V.G0 V c) (Sage0V.flushed0_eq V c) (fun i => Sage0V.cover0 i)

end Cert.KernelIdeal.Frame

end
-- ==== Proof.KI.Sage1Blocks.lean ====
import proofs.«418495_j25864293056532_3_alg».proof.Proof.KI.Sage1Runs
import Idealize.ShloMosaic.Lib.ValueIdx
import Idealize.ShloMosaic.Lib.Pipeline.Value

noncomputable section

namespace Cert.KernelIdeal.Frame

open Cert.KernelIdeal Cert.KernelIdeal.Gen
open Idealize.ShloMosaic Idealize.ShloMosaic.TcCoe
open Idealize.ShloMosaic.ValueIdx

variable {F : FTy → Type} [FloatOps F]

variable (V : (c : Dev nD) → (b : Ref sig .tc) → Buf (Elt F) ((c : Thread nD τ).loc b))

theorem idx_facts1 : ∀ t : Fin cfg1.N,
    (∀ a : Fin 2, win1_0.index t a = 0 ∧ win1_3.index t a = 0 ∧ win1_4.index t a = 0 ∧ win1_5.index t a = 0)
      ∧ win1_1.index t (0 : Fin 2) = t.val % 250 ∧ win1_1.index t (1 : Fin 2) = 0
      ∧ win1_2.index t (0 : Fin 2) = 0 ∧ win1_2.index t (1 : Fin 2) = t.val % 250 :=
  (by decide +kernel : ∀ t : Fin grid1.N, _)

-- A block whose number is zero on both axes starts at the array's origin: an index of it is the same index of the array.
private theorem idx_whole {n0 n1 k0 k1 : ℕ} {x i : (⟨2, ![n0, n1]⟩ : Shape).Idx} (h0 : k0 = 0) (h1 : k1 = 0)
    (e0 : (x 0).val = k0 * n0 + 1 * (i 0).val) (e1 : (x 1).val = k1 * n1 + 1 * (i 1).val) : x = i :=
  Shape.idx_ext₂ (by rw [e0, h0]; omega) (by rw [e1, h1]; omega)

theorem blk1_1 (c : Dev nD) (t : Fin cfg1.N) (r : Fin 2560) (k : Fin 128) : iblk1 V c 1 t (ix2 r k) = V c main_v20 (ix2 (⟨2560 * (t.val % 250) + r.val, by omega⟩ : Fin 640000) k) := by
  obtain ⟨-, h0, h1, -⟩ := idx_facts1 t
  refine congrArg (V c main_v20) (Shape.idx_ext₂ ?_ ?_)
  · show win1_1.index t 0 * 2560 + 1 * r.val = 2560 * (t.val % 250) + r.val; rw [h0]; omega
  · show win1_1.index t 1 * 128 + 1 * k.val = k.val; rw [h1]; omega

theorem blk1_2 (c : Dev nD) (t : Fin cfg1.N) (r : Fin 2560) : iblk1 V c 2 t (ix2 (0 : Fin 1) r) = V c main_v4 (ix2 (0 : Fin 1) (⟨2560 * (t.val % 250) + r.val, by omega⟩ : Fin 640000)) := by
  obtain ⟨-, -, -, h0, h1⟩ := idx_facts1 t
  refine congrArg (V c main_v4) (Shape.idx_ext₂ ?_ ?_)
  · show win1_2.index t 0 * 1 + 1 * 0 = 0; rw [h0]
  · show win1_2.index t 1 * 2560 + 1 * r.val = 2560 * (t.val % 250) + r.val; rw [h1]; omega

theorem blk1_0 (c : Dev nD) (t : Fin cfg1.N) (i : S10000x128.Idx) : iblk1 V c 0 t i = V c main_v13 i :=
  congrArg (V c main_v13) (idx_whole ((idx_facts1 t).1 0).1 ((idx_facts1 t).1 1).1 rfl rfl)

theorem blk1_3 (c : Dev nD) (t : Fin cfg1.N) (i : S128x128.Idx) : iblk1 V c 3 t i = V c main_arg5 i :=
  congrArg (V c main_arg5) (idx_whole ((idx_facts1 t).1 0).2.1 ((idx_facts1 t).1 1).2.1 rfl rfl)

theorem blk1_4 (c : Dev nD) (t : Fin cfg1.N) (i : S128x128.Idx) : iblk1 V c 4 t i = V c main_arg6 i :=
  congrArg (V c main_arg6) (idx_whole ((idx_facts1 t).1 0).2.2.1 ((idx_facts1 t).1 1).2.2.1 rfl rfl)

theorem blk1_5 (c : Dev nD) (t : Fin cfg1.N) (i : S1x128.Idx) : iblk1 V c 5 t i = V c main_v21 i :=
  congrArg (V c main_v21) (idx_whole ((idx_facts1 t).1 0).2.2.2 ((idx_facts1 t).1 1).2.2.2 rfl rfl)

end Cert.KernelIdeal.Frame

end
-- ==== Proof.KI.Sage1Value.lean ====
import proofs.«418495_j25864293056532_3_alg».proof.Proof.KI.Sage1Frame
import proofs.«418495_j25864293056532_3_alg».proof.Proof.KI.Sage1Blocks
import proofs.«418495_j25864293056532_3_alg».proof.Proof.KI.SagePayload
import proofs.«418495_j25864293056532_3_alg».proof.Proof.SageGlue
import Idealize.ShloMosaic.Lib.Pipeline.Value
import Idealize.ShloMosaic.Lib.ValueIdx

noncomputable section

namespace Cert.KernelIdeal.Frame

open Cert.KernelIdeal Cert.KernelIdeal.Gen
open Idealize.ShloMosaic Idealize.ShloMosaic.TcCoe Idealize.ShloMosaic.Tactic
open Cert.SageSpec Idealize.ShloMosaic.ValueIdx

namespace Sage1V

section pieces
variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

theorem read_unread_sc0 (h : (scM1_0 : Memref sig .tc .vmem S1000x128 .f32).IsWhole) (X : Vec F S1000x128 .f32) :
    View.read (Elt F) (View.whole cc1_scratch0) (h.unread X) = X := h.read_unread X
theorem read_unread_sc1 (h : (scM1_1 : Memref sig .tc .vmem S1000x1 .f32).IsWhole) (X : Vec F S1000x1 .f32) :
    View.read (Elt F) (View.whole cc1_scratch1) (h.unread X) = X := h.read_unread X

theorem ld0 {d : Fin 2 → ℕ} {e : EltTy} (inb) (X : (⟨2, d⟩ : Shape).Idx → Elt F e) : View.ld X (Rect.unit (s := ⟨2, d⟩) ![0, 0] d inb) = X :=
  View.ld_unit_zero hz2 inb X

abbrev rows0 (c : Dev nD) (t : Fin cfg1.N) (hc1 : cond1_1 (grid1.coords t)) : Vec F S1000x128 .f32 :=
  View.ld (iblk1 V c 0 t) (Rect.unit (s := S10000x128) (k1_off1 (grid1.coords t)) S1000x128.size (k1_off1_inb (grid1.coords t) hc1))

-- At a node block's first chunk the totals are reset before the chunk's shares are added.
theorem accs_A (c : Dev nD) (t : Fin cfg1.N) (h0 : t.val % 250 = 0) (h1 : ¬t.val % 250 = 249) :
    (outsAt1 V c t.val t.isLt).2.1 = k1_pay6 (grid1.coords t) (iblk1 V c 2 t) (iblk1 V c 1 t) (k1_pay3 (F := F))
      ∧ (outsAt1 V c t.val t.isLt).2.2 = k1_pay1 (k1_pay7 (grid1.coords t) (iblk1 V c 2 t) (k1_pay4 (F := F))) := by
  rw [outsAt1_A V c t h0 h1]
  unfold step1_A sout1_A_0 sout1_A_1
  dsimp only
  rw [View.read_writes_eq_canon _ _ _ (scover1_A_0 V c t _ _), View.read_writes_eq_canon _ _ _ (scover1_A_1 V c t _ _)]
  unfold run1_A kernelRun1_A
  dsimp only
  sl_unfold_words
  rw [View.canon_cons_unit_zero (S := S1000x128) hz2, View.canon_cons_unit_zero (S := S1000x1) hz2]
  refine ⟨?_, ?_⟩ <;> simp only [View.readAt_eq_ld, Memref.IsWhole.read_unread, ld0, View.readCov_unit_zero (S := S1000x128) _ hz2, View.readCov_unit_zero (S := S1000x1) _ hz2]

-- At any other chunk the chunk's shares are added to what the point before left.
theorem accs_B (c : Dev nD) (t : Fin cfg1.N) (h0 : ¬t.val % 250 = 0) (h1 : ¬t.val % 250 = 249) :
    (outsAt1 V c t.val t.isLt).2.1 = k1_pay6 (grid1.coords t) (iblk1 V c 2 t) (iblk1 V c 1 t) (outsAt1 V c (t.val - 1) (Nat.lt_of_le_of_lt (Nat.sub_le _ _) t.isLt)).2.1
      ∧ (outsAt1 V c t.val t.isLt).2.2 = k1_pay1 (k1_pay7 (grid1.coords t) (iblk1 V c 2 t) (outsAt1 V c (t.val - 1) (Nat.lt_of_le_of_lt (Nat.sub_le _ _) t.isLt)).2.2) := by
  rw [outsAt1_B V c t h0 h1]
  unfold step1_B sout1_B_0 sout1_B_1
  dsimp only
  rw [View.read_writes_eq_canon _ _ _ (scover1_B_0 V c t _ _ _ _), View.read_writes_eq_canon _ _ _ (scover1_B_1 V c t _ _ _ _)]
  unfold run1_B kernelRun1_B
  dsimp only
  sl_unfold_words
  rw [View.canon_unit_zero (S := S1000x128) hz2, View.canon_unit_zero (S := S1000x1) hz2]
  refine ⟨?_, ?_⟩ <;> simp only [View.readAt_eq_ld, Memref.IsWhole.read_unread, read_unread_sc0, read_unread_sc1, ld0]

-- The last chunk also stores the node block's result, computed from the totals it has just completed.
theorem accs_C (c : Dev nD) (t : Fin cfg1.N) (h0 : ¬t.val % 250 = 0) (h1 : t.val % 250 = 249) :
    ((outsAt1 V c t.val t.isLt).2.1 = k1_pay6 (grid1.coords t) (iblk1 V c 2 t) (iblk1 V c 1 t) (outsAt1 V c (t.val - 1) (Nat.lt_of_le_of_lt (Nat.sub_le _ _) t.isLt)).2.1
      ∧ (outsAt1 V c t.val t.isLt).2.2 = k1_pay1 (k1_pay7 (grid1.coords t) (iblk1 V c 2 t) (outsAt1 V c (t.val - 1) (Nat.lt_of_le_of_lt (Nat.sub_le _ _) t.isLt)).2.2))
      ∧ (outsAt1 V c t.val t.isLt).1 = k1_pay2 (rows0 V c t ((hcond1_1 t).mpr h1)) (outsAt1 V c t.val t.isLt).2.1 (outsAt1 V c t.val t.isLt).2.2 (iblk1 V c 3 t) (iblk1 V c 4 t) (iblk1 V c 5 t) := by
  rw [outsAt1_C V c t h0 h1]
  unfold step1_C sout1_C_0 sout1_C_1 out1_C_6
  dsimp only
  rw [View.read_writes_eq_canon _ _ _ (scover1_C_0 V c t _ _ _ _), View.read_writes_eq_canon _ _ _ (scover1_C_1 V c t _ _ _ _), View.read_writes_eq_canon _ _ _ (cover1_C_6 V c t _ _ _ _)]
  unfold run1_C kernelRun1_C
  dsimp only
  sl_unfold_words
  rw [View.canon_unit_zero (S := S1000x128) hz2, View.canon_unit_zero (S := S1000x1) hz2, View.canon_unit_zero (S := S1000x128) hz2]
  refine ⟨⟨?_, ?_⟩, ?_⟩ <;> simp only [View.readAt_eq_ld, Memref.IsWhole.read_unread, read_unread_sc0, read_unread_sc1, ld0, View.readCov_unit_zero (S := S1000x128) _ hz2, View.readCov_unit_zero (S := S1000x1) _ hz2] <;> rfl

end pieces

section value
open Cert.KernelIdeal.Payload
variable (V : (c : Dev nD) → (b : Ref sig .tc) → Buf (Elt Ideal) ((c : Thread nD τ).loc b))

abbrev msgF0 (c : Dev nD) : Fin 640000 → Fin 128 → EReal := mat (V c main_v20)
abbrev dstF0 (c : Dev nD) : Fin 640000 → BitVec 32 := fun e => V c main_v4 (ix2 (0 : Fin 1) e)

abbrev nb0 (t : Fin cfg1.N) : Fin 10 := ⟨(grid1.coords t 0).val, (grid1.coords t 0).isLt⟩
theorem hch0 (t : Fin cfg1.N) : t.val % 250 < 250 := Nat.mod_lt _ (by decide)
abbrev ch0 (t : Fin cfg1.N) : Fin 250 := ⟨t.val % 250, hch0 t⟩

theorem grid_facts0 : ∀ t : Fin cfg1.N, (grid1.coords t 0).val = t.val / 250
    ∧ win1_6.index t (0 : Fin 2) = t.val / 250 ∧ win1_6.index t (1 : Fin 2) = 0
    ∧ k1_off1 (grid1.coords t) (0 : Fin 2) = 1000 * (t.val / 250) ∧ k1_off1 (grid1.coords t) (1 : Fin 2) = 0 :=
  (by decide +kernel : ∀ t : Fin grid1.N, _)

theorem aggK_step0 (msg : Fin 640000 → Fin 128 → EReal) (dst : Fin 640000 → BitVec 32) (n : Fin 10000) (k : Fin 128) (j : ℕ) (hj : j < 250) :
    aggK msg dst n k (j + 1) = aggK msg dst n k j + aggPart msg dst n k ⟨j, hj⟩ := by
  rw [aggK, dif_pos hj]

theorem degK_step0 (dst : Fin 640000 → BitVec 32) (n : Fin 10000) (j : ℕ) (hj : j < 250) :
    degK dst n (j + 1) = degK dst n j + degPart dst n ⟨j, hj⟩ := by
  rw [degK, dif_pos hj]

abbrev Acc0 (c : Dev nD) (i : Fin 10) (j : ℕ) (xs0 : Vec Ideal S1000x128 .f32) (xs1 : Vec Ideal S1000x1 .f32) : Prop :=
  (∀ (p : Fin 1000) (k : Fin 128), xs0 (ix2 p k) = aggK (msgF0 V c) (dstF0 V c) (npos i p) k j)
    ∧ ∀ p : Fin 1000, xs1 (ix2 p (0 : Fin 1)) = degK (dstF0 V c) (npos i p) j

-- Totals over the chunks before a point's own, plus that chunk's shares, are the totals up to and including it.
theorem acc_of (c : Dev nD) (t : Fin cfg1.N) (i : Fin 10) (j : ℕ) (hi : nb0 t = i) (hj : t.val % 250 = j) (xs0 : Vec Ideal S1000x128 .f32) (xs1 : Vec Ideal S1000x1 .f32)
    (e : (outsAt1 V c t.val t.isLt).2.1 = k1_pay6 (grid1.coords t) (iblk1 V c 2 t) (iblk1 V c 1 t) xs0
      ∧ (outsAt1 V c t.val t.isLt).2.2 = k1_pay1 (k1_pay7 (grid1.coords t) (iblk1 V c 2 t) xs1))
    (h : Acc0 V c i j xs0 xs1) :
    Acc0 V c (nb0 t) (t.val % 250 + 1) (outsAt1 V c t.val t.isLt).2.1 (outsAt1 V c t.val t.isLt).2.2 := by
  subst hi hj
  rw [e.1, e.2]
  have hm := maskAt_eq_hit (grid1.coords t) (iblk1 V c 2 t) (dstF0 V c) (ch0 t) (fun r => blk1_2 V c t r)
  refine ⟨fun p k => ?_, fun p => ?_⟩
  · refine (pay6_apply1 (grid1.coords t) (iblk1 V c 2 t) (iblk1 V c 1 t) xs0 p k).trans ?_
    have hx : ∀ r : Fin 2560, iblk1 V c 1 t (ix2 r k) = msgF0 V c (epos (ch0 t) r) k := fun r => blk1_1 V c t r k
    rw [h.1 p k, aggK_step0 _ _ _ _ _ (hch0 t)]
    unfold aggPart
    simp only [hm, hx]
  · refine (pay71_apply1 (grid1.coords t) (iblk1 V c 2 t) xs1 p).trans ?_
    rw [h.2 p, degK_step0 _ _ _ (hch0 t)]
    unfold degPart
    simp only [hm]

theorem acc_A (c : Dev nD) (t : Fin cfg1.N) (h0 : t.val % 250 = 0) :
    Acc0 V c (nb0 t) (t.val % 250 + 1) (outsAt1 V c t.val t.isLt).2.1 (outsAt1 V c t.val t.isLt).2.2 :=
  acc_of V c t _ _ rfl h0 _ _ (accs_A V c t h0 (by omega)) ⟨fun p k => pay3_apply1 p k, fun p => pay4_apply1 p⟩

theorem acc0_inv (c : Dev nD) : ∀ (n : ℕ) (t : Fin cfg1.N), t.val = n →
    Acc0 V c (nb0 t) (t.val % 250 + 1) (outsAt1 V c t.val t.isLt).2.1 (outsAt1 V c t.val t.isLt).2.2 := by
  intro n
  induction n with
  | zero => exact fun t ht => acc_A V c t (by rw [ht])
  | succ n ih =>
    intro t ht
    by_cases h0 : t.val % 250 = 0
    · exact acc_A V c t h0
    · have hlt : t.val - 1 < cfg1.N := Nat.lt_of_le_of_lt (Nat.sub_le _ _) t.isLt
      have hp := ih ⟨t.val - 1, hlt⟩ (by show t.val - 1 = n; omega)
      have hnb : nb0 t = nb0 ⟨t.val - 1, hlt⟩ := by
        apply Fin.ext
        show (grid1.coords t 0).val = (grid1.coords ⟨t.val - 1, hlt⟩ 0).val
        rw [(grid_facts0 ⟨t.val - 1, hlt⟩).1, (grid_facts0 t).1]
        show t.val / 250 = (t.val - 1) / 250
        omega
      have hj : t.val % 250 = (t.val - 1) % 250 + 1 := by omega
      by_cases h1 : t.val % 250 = 249
      · exact acc_of V c t _ _ hnb hj _ _ (accs_C V c t h0 h1).1 hp
      · exact acc_of V c t _ _ hnb hj _ _ (accs_B V c t h0 h1) hp

theorem rows0_apply (c : Dev nD) (t : Fin cfg1.N) (hc1 : cond1_1 (grid1.coords t)) (p : Fin 1000) (k : Fin 128) :
    rows0 V c t hc1 (ix2 p k) = V c main_v13 (ix2 (npos (nb0 t) p) k) := by
  obtain ⟨g0, -, -, o0, o1⟩ := grid_facts0 t
  refine (blk1_0 V c t ((Rect.unit (s := S10000x128) (k1_off1 (grid1.coords t)) S1000x128.size (k1_off1_inb (grid1.coords t) hc1)).idx (ix2 p k))).trans ?_
  refine congrArg (V c main_v13) (Shape.idx_ext₂ ?_ ?_)
  · show k1_off1 (grid1.coords t) 0 + 1 * p.val = 1000 * (grid1.coords t 0).val + p.val; rw [o0, g0]; omega
  · show k1_off1 (grid1.coords t) 1 + 1 * k.val = k.val; rw [o1]; omega

-- The stored result at row p is the layer at the node block's row p: the totals are complete at the last chunk.
theorem out1_entry (c : Dev nD) (t : Fin cfg1.N) (h0 : ¬t.val % 250 = 0) (h1 : t.val % 250 = 249) (p : Fin 1000) (d : Fin 128) :
    (outsAt1 V c t.val t.isLt).1 (ix2 p d) = layerK (mat (V c main_v13)) (msgF0 V c) (dstF0 V c) (mat (V c main_arg5)) (mat (V c main_arg6)) (fun d' => V c main_v21 (ix2 (0 : Fin 1) d')) (npos (nb0 t) p) d := by
  obtain ⟨iA, iD⟩ := acc0_inv V c t.val t rfl
  rw [h1] at iA iD
  rw [(accs_C V c t h0 h1).2]
  refine (pay2_apply1 _ _ _ _ _ _ p d).trans ?_
  unfold layerK layerOf mat
  simp only [rows0_apply V c t _ p, iA, iD, blk1_3 V c t, blk1_4 V c t, blk1_5 V c t, Nat.reduceAdd]

abbrev G0 (c : Dev nD) : S10000x128.Idx → EReal := arr2 (layerK (mat (V c main_v13)) (msgF0 V c) (dstF0 V c) (mat (V c main_arg5)) (mat (V c main_arg6)) (fun d' => V c main_v21 (ix2 (0 : Fin 1) d')))

theorem oblk0_emb (t : Fin cfg1.N) (y : S1000x128.Idx) :
    ((cfg1.win 6).blk t).view.emb y = (ix2 (npos (nb0 t) (y 0)) (y 1) : S10000x128.Idx) := by
  obtain ⟨g0, w0, w1, -, -⟩ := grid_facts0 t
  refine Shape.idx_ext₂ ?_ ?_
  · show win1_6.index t 0 * 1000 + 1 * (y 0).val = 1000 * (grid1.coords t 0).val + (y 0).val; rw [w0, g0]; omega
  · show win1_6.index t 1 * 128 + 1 * (y 1).val = (y 1).val; rw [w1]; omega

theorem flushed0_eq (c : Dev nD) (t : Fin cfg1.N) (hf : (cfg1.win 6).flush t = true) :
    (dat1 V c).flushed 6 t = ((cfg1.win 6).blk t).view.read (Elt Ideal) (G0 V c) := by
  have h1 : t.val % 250 = 249 := (flush1_6 t).mp hf
  show (cfg1.win 6).cut (grid1.coords t) ((dat1 V c).after 6 t) = _
  rw [after1_6]
  funext y
  show (outsAt1 V c t.val t.isLt).1 y = G0 V c (((cfg1.win 6).blk t).view.emb y)
  rw [oblk0_emb t y]
  exact (congrArg (outsAt1 V c t.val t.isLt).1 (eq_ix2 y)).trans (out1_entry V c t (by omega) h1 (y 0) (y 1))

-- Every row of the array lies in the block that the last chunk of its node block stores.
theorem cover1 (i : S10000x128.Idx) : ∃ t : Fin cfg1.N, (cfg1.win 6).flush t = true ∧ i ∈ ((cfg1.win 6).blk t).view.set := by
  have hi0 : (i 0).val < 10000 := (i 0).isLt
  have ht : 250 * ((i 0).val / 1000) + 249 < cfg1.N := by rw [show cfg1.N = 2500 from N_1]; omega
  refine ⟨⟨_, ht⟩, (flush1_6 _).mpr (by show (250 * ((i 0).val / 1000) + 249) % 250 = 249; omega), ?_⟩
  have e : ((cfg1.win 6).blk ⟨_, ht⟩).view.emb (ix2 ⟨(i 0).val % 1000, Nat.mod_lt _ (by decide)⟩ (i 1)) = i := by
    rw [oblk0_emb]
    refine Shape.idx_ext₂ ?_ rfl
    show 1000 * (grid1.coords ⟨_, ht⟩ 0).val + (i 0).val % 1000 = (i 0).val
    rw [(grid_facts0 ⟨_, ht⟩).1]
    show 1000 * ((250 * ((i 0).val / 1000) + 249) / 250) + (i 0).val % 1000 = (i 0).val
    omega
  have h := ((cfg1.win 6).blk ⟨_, ht⟩).view.emb_mem_set (ix2 ⟨(i 0).val % 1000, Nat.mod_lt _ (by decide)⟩ (i 1))
  rwa [e] at h

end value

end Sage1V

theorem sage1_arr (V : (c : Dev nD) → (b : Ref sig .tc) → Buf (Elt Ideal) ((c : Thread nD τ).loc b)) (c : Dev nD) :
    (dat1 (F := Ideal) V c).arrAt 6 cfg1.N
      = arr2 (layerK (mat (V c main_v13)) (mat (V c main_v20)) (fun e => V c main_v4 (ix2 (0 : Fin 1) e)) (mat (V c main_arg5)) (mat (V c main_arg6)) (fun d => V c main_v21 (ix2 (0 : Fin 1) d))) :=
  (dat1 V c).arrAt_eq_of_cover 6 (Sage1V.G0 V c) (Sage1V.flushed0_eq V c) (fun i => Sage1V.cover1 i)

end Cert.KernelIdeal.Frame

end
-- ==== Proof.KI.Clf2Value.lean ====
import proofs.«418495_j25864293056532_3_alg».proof.Proof.KI.Clf2
import proofs.«418495_j25864293056532_3_alg».proof.Proof.KI.SagePayload
import proofs.«418495_j25864293056532_3_alg».proof.Proof.SageGlue
import Idealize.ShloMosaic.Lib.Pipeline.Value
import Idealize.ShloMosaic.Lib.ValueIdx

noncomputable section

namespace Cert.KernelIdeal.Frame

open Cert.KernelIdeal Cert.KernelIdeal.Gen
open Idealize.ShloMosaic Idealize.ShloMosaic.TcCoe
open Cert.SageSpec Cert.KernelIdeal.Payload Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

theorem clf_idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

theorem clf_idx_onto : ∀ q0 : Fin 10, ∃ t : Fin cfg2.N, win2_3.index t = ![q0.val, 0] :=
  (by decide +kernel : ∀ q0 : Fin 10, ∃ t : Fin grid2.N, win2_3.index t = ![q0.val, 0])

-- Block t of the node array is the rows that block t of the output names, and the weights and the bias are read whole: a stored entry is the classifier at the array's own row.
theorem clf_flushed_eq (c : Dev nD) (t : Fin cfg2.N) :
    (dat2 (F := Ideal) V c).flushed 3 t = ((cfg2.win 3).blk t).view.read (Elt Ideal) (arr2 (clf (mat (V c main_v22)) (mat (V c main_arg8)) (fun d => V c main_v23 (ix2 (0 : Fin 1) d)))) := by
  show (cfg2.win 3).cut (grid2.coords t) ((dat2 (F := Ideal) V c).after 3 t) = _
  rw [after2_3]
  unfold out2_3
  rw [View.canon_unit_zero zero_offsets]
  simp only [View.ld_unit_zero (S := S1000x128) zero_offsets, View.ld_unit_zero (S := S128x40) zero_offsets, View.ld_unit_zero (S := S1x40) zero_offsets]
  obtain ⟨e0, e1, e2, e3, e4, e5, e7⟩ := clf_idx_facts t
  funext j
  rw [View.read_apply, cast_eq]
  refine ((congrArg (k2_pay1 _ _ _) (eq_ix2 j)).trans (clf_apply _ _ _ (j 0) (j 1))).trans ?_
  unfold arr2 clf mat
  refine congrArg₂ (· + ·) (Finset.sum_congr rfl fun k _ => congrArg₂ (· * ·) ?_ ?_) ?_
  · refine congrArg (V c main_v22) (Shape.idx_ext₂ ?_ ?_)
    · show win2_0.index t (0 : Fin 2) * 1000 + 1 * (j 0).val = win2_3.index t (0 : Fin 2) * 1000 + 1 * (j 0).val; omega
    · show win2_0.index t (1 : Fin 2) * 128 + 1 * k.val = k.val; omega
  · refine congrArg (V c main_arg8) (Shape.idx_ext₂ ?_ ?_)
    · show win2_1.index t (0 : Fin 2) * 128 + 1 * k.val = k.val; omega
    · show win2_1.index t (1 : Fin 2) * 40 + 1 * (j 1).val = win2_3.index t (1 : Fin 2) * 40 + 1 * (j 1).val; omega
  · refine congrArg (V c main_v23) (Shape.idx_ext₂ ?_ ?_)
    · show win2_2.index t (0 : Fin 2) * 1 + 1 * 0 = 0; omega
    · show win2_2.index t (1 : Fin 2) * 40 + 1 * (j 1).val = win2_3.index t (1 : Fin 2) * 40 + 1 * (j 1).val; omega

-- Row n of the array is row n % 1000 of the block of point n / 1000.
theorem clf_cover (i : S10000x40.Idx) :
    ∃ t : Fin cfg2.N, (cfg2.win 3).flush t = true ∧ i ∈ ((cfg2.win 3).blk t).view.set := by
  have hi0 : (i 0).val < 10000 := (i 0).isLt
  obtain ⟨t, ht⟩ := clf_idx_onto ⟨(i 0).val / 1000, by omega⟩
  have q0 : win2_3.index t (0 : Fin 2) = (i 0).val / 1000 := congrFun ht 0
  have q1 : win2_3.index t (1 : Fin 2) = 0 := congrFun ht 1
  obtain ⟨y, hy⟩ : ∃ y, ((cfg2.win 3).blk t).view.emb y = i :=
    ⟨ix2 ⟨(i 0).val % 1000, Nat.mod_lt _ (by decide)⟩ (i 1), Shape.idx_ext₂
      (by show win2_3.index t (0 : Fin 2) * 1000 + 1 * ((i 0).val % 1000) = (i 0).val; omega)
      (by show win2_3.index t (1 : Fin 2) * 40 + 1 * (i 1).val = (i 1).val; omega)⟩
  exact ⟨t, flush2_3 t, hy ▸ View.emb_mem_set _ y⟩

theorem clf2_arr (c : Dev nD) :
    (dat2 (F := Ideal) V c).arrAt 3 cfg2.N
      = arr2 (clf (mat (V c main_v22)) (mat (V c main_arg8)) (fun d => V c main_v23 (ix2 (0 : Fin 1) d))) :=
  (dat2 (F := Ideal) V c).arrAt_eq_of_cover 3 _ (fun t _ => clf_flushed_eq V c t) clf_cover

end Cert.KernelIdeal.Frame

end
-- ==== Proof.LibRows.lean ====
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

-- On the row axis the start is the clamped row number and nothing is added; on the column axis only the offset c.
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  have hsi : (rowGatherDims N E C wf).siIdx (ix2 e c) ⟨List.idxOf (0 : Fin 2) [0], Nat.one_pos⟩ = ix2 e (0 : Fin 1) :=
    funext fun b => Fin.ext (by
      match b with
      | ⟨0, _⟩ => rfl
      | ⟨1, _⟩ => rfl)
  unfold Host.gather
  refine congrArg x (funext fun a => Fin.ext ?_)
  match a with
  | ⟨0, _⟩ => exact congrArg (fun i => min (idx i).toInt.toNat (N - 1) + 0 + 0) hsi
  | ⟨1, _⟩ => exact Nat.zero_add c.val

abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

-- An update lands at i exactly when, on every axis, its start plus its window coordinate is i's coordinate.
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hb
      rw [← Option.some.inj h]
      exact (Int.toNat_of_nonneg (hb a).1).symm
    · exact absurd h (by simp)
  · intro h
    rw [dif_pos fun a => by rw [h a]; exact ⟨Int.natCast_nonneg _, Int.ofNat_lt.mpr (i a).isLt⟩]
    exact congrArg some (funext fun a => Fin.ext ((congrArg Int.toNat (h a)).trans (Int.toNat_natCast _)))

private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hsi : (rowScatterDims N E C wf).siIdx (ix2 e c') ⟨List.idxOf (0 : Fin 2) [0], Nat.one_pos⟩ = ix2 e (0 : Fin 1) :=
    funext fun b => Fin.ext (by
      match b with
      | ⟨0, _⟩ => rfl
      | ⟨1, _⟩ => rfl)
  have hs0 : (rowScatterDims N E C wf).start (ix2 e c') idx 0 = (idx (ix2 e (0 : Fin 1))).toInt :=
    congrArg (fun i => (idx i).toInt) hsi
  rw [resultIdx?_eq_some_iff, Fin.forall_fin_two, hs0, Fin.ext_iff]
  show (idx (ix2 e (0 : Fin 1))).toInt + ((0 : ℕ) : ℤ) = (n.val : ℤ) ∧ (0 : ℤ) + ((c'.val : ℕ) : ℤ) = (c.val : ℤ) ↔ _
  omega

theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.KI.KHost.lean ====
import proofs.«418495_j25864293056532_3_alg».proof.Proof.Gen.KernelIdeal.Launch
import proofs.«418495_j25864293056532_3_alg».proof.Proof.SageGlue
import proofs.«418495_j25864293056532_3_alg».proof.Proof.LibRows
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Frame

open Cert.KernelIdeal Cert.KernelIdeal.Gen Cert.SageSpec
open Idealize.ShloMosaic Idealize.ShloMosaic.TcCoe Idealize.ShloMosaic.ValueIdx

theorem select_slt_eq_wrapW (x : BitVec 32) :
    Scalar.select (IntOp.cmpi .slt x 0#32) (IntOp.addi x 10000#32) x = wrapW x := by
  unfold Scalar.select IntOp.cmpi IntOp.addi wrapW
  cases h : x.slt 0#32 <;> simp

theorem rowList_apply (r : Fin 2) (ei : S2x640000.Idx → BitVec 32) (h0 : S2x640000.Slices ![r.val, 0] S1x640000)
    (h1 : S1x640000.ShapeCasts S640000) (e : Fin 640000) :
    shapeCast S640000 (extractStridedSlice S1x640000 ![r.val, 0] ei h0) h1 (ix1 e) = ei (ix2 r e) := by
  rw [shapeCast_1a_a_apply, extractStridedSlice_apply _ ei h0 (ix2 (0 : Fin 1) e) (ix2 r e) (by
    intro a
    match a with
    | ⟨0, _⟩ => rfl
    | ⟨1, _⟩ => exact (Nat.zero_add _).symm)]

theorem srcCol_apply (s : S640000.Idx → BitVec 32) (e : Fin 640000) :
    broadcastInDim S640000x1 ![0] bcast_S640000_S640000x1_0
      (select (cmpi .slt s (broadcastInDim S640000 ![] bcast_S_S640000 (constantI S_ 32 0#32)))
        (addi s (broadcastInDim S640000 ![] bcast_S_S640000 (constantI S_ 32 10000#32))) s)
      (ix2 e (0 : Fin 1)) = wrapW (s (ix1 e)) := by
  rw [broadcastInDim_apply _ _ _ (ix2 e (0 : Fin 1)) (ix1 e) (by
    intro a
    match a with
    | ⟨0, _⟩ => rfl), select_apply]
  exact select_slt_eq_wrapW _

-- The gathered rows are the table's rows that the wrapped, clamped source words select.
theorem kgather_read (x : S10000x128.Idx → EReal) (s : S640000.Idx → BitVec 32) (src : Fin 640000 → BitVec 32)
    (hs : ∀ e, s (ix1 e) = src e) :
    Host.gather gather_S10000x128_S640000x1_S640000x128_1_0_n_n_0_1_1128 x
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 10000#32))) s))
      = arr2 (gatherRows (mat x) src) := by
  funext i
  obtain ⟨e, k, rfl⟩ : ∃ (e : Fin 640000) (k : Fin 128), i = ix2 e k := ⟨i 0, i 1, eq_ix2 i⟩
  refine (rowGather_apply (N := 10000) (E := 640000) (C := 128) (by omega)
    gather_S10000x128_S640000x1_S640000x128_1_0_n_n_0_1_1128_wf x _ e k).trans ?_
  exact congrArg (fun r : Fin 10000 => x (ix2 r k)) (Fin.ext (congrArg (fun w : BitVec 32 => min w.toInt.toNat 9999)
    ((srcCol_apply s e).trans (congrArg wrapW (hs e)))))

theorem kdst_read (ei : S2x640000.Idx → BitVec 32) (e : Fin 640000) :
    shapeCast S1x640000
        (shapeCast S640000 (extractStridedSlice S1x640000 ![1, 0] ei slices_S2x640000_S1x640000_1_0) shapeCasts_S1x640000_S640000)
        shapeCasts_S640000_S1x640000 (ix2 (0 : Fin 1) e)
      = dstOf ei e := by
  rw [shapeCast_a_1a_apply]
  exact rowList_apply 1 ei _ _ e

end Cert.KernelIdeal.Frame

end
-- ==== Proof.KI.KValue.lean ====
import proofs.«418495_j25864293056532_3_alg».proof.Proof.KI.Run
import proofs.«418495_j25864293056532_3_alg».proof.Proof.KI.Sage0Value
import proofs.«418495_j25864293056532_3_alg».proof.Proof.KI.Sage1Value
import proofs.«418495_j25864293056532_3_alg».proof.Proof.KI.Clf2Value
import proofs.«418495_j25864293056532_3_alg».proof.Proof.KI.KHost
import proofs.«418495_j25864293056532_3_alg».proof.Proof.SageGlue
import proofs.«418495_j25864293056532_3_alg».proof.Proof.LibRows
import Idealize.ShloMosaic.Lib.StableHlo.Run

noncomputable section

namespace Cert.KernelIdeal.Frame

open Cert.KernelIdeal Cert.KernelIdeal.Gen Cert.SageSpec
open Idealize.ShloMosaic Idealize.ShloMosaic.TcCoe Idealize.ShloMosaic.ValueIdx
open Idealize.ShloMosaic.Pipeline (Dat)

section Host
variable (W : Valuation τ sig (Elt Ideal))

theorem host0_v1 (e : Fin 640000) : (StableHlo.after (hostOps0 (F := Ideal)) W (Proc.devRef .tc main_v1) : S640000.Idx → BitVec 32) (ix1 e)
    = srcOf (W main_arg1 : S2x640000.Idx → BitVec 32) e := by
  after_results; exact rowList_apply 0 _ _ _ e

theorem host0_v11 : (StableHlo.after (hostOps0 (F := Ideal)) W (Proc.devRef .tc main_v11) : S640000x128.Idx → EReal)
    = arr2 (gatherRows (mat (W main_arg0 : S10000x128.Idx → EReal)) (srcOf (W main_arg1 : S2x640000.Idx → BitVec 32))) := by
  after_results; exact kgather_read _ _ _ (rowList_apply 0 _ _ _)

theorem host0_v4 (e : Fin 640000) : (StableHlo.after (hostOps0 (F := Ideal)) W (Proc.devRef .tc main_v4) : S1x640000.Idx → BitVec 32) (ix2 (0 : Fin 1) e)
    = dstOf (W main_arg1 : S2x640000.Idx → BitVec 32) e := by
  after_results; exact kdst_read _ e

theorem host0_v12 (d : Fin 128) : (StableHlo.after (hostOps0 (F := Ideal)) W (Proc.devRef .tc main_v12) : S1x128.Idx → EReal) (ix2 (0 : Fin 1) d)
    = (W main_arg4 : S128.Idx → EReal) (ix1 d) := by
  after_results; exact shapeCast_a_1a_apply _ _ 0 d

theorem host1_v20 : (StableHlo.after (hostOps1 (F := Ideal)) W (Proc.devRef .tc main_v20) : S640000x128.Idx → EReal)
    = arr2 (gatherRows (mat (W main_v13 : S10000x128.Idx → EReal)) fun e => (W main_v1 : S640000.Idx → BitVec 32) (ix1 e)) := by
  after_results; exact kgather_read _ _ _ fun _ => rfl

theorem host1_v21 (d : Fin 128) : (StableHlo.after (hostOps1 (F := Ideal)) W (Proc.devRef .tc main_v21) : S1x128.Idx → EReal) (ix2 (0 : Fin 1) d)
    = (W main_arg7 : S128.Idx → EReal) (ix1 d) := by
  after_results; exact shapeCast_a_1a_apply _ _ 0 d

theorem host2_v23 (c' : Fin 40) : (StableHlo.after (hostOps2 (F := Ideal)) W (Proc.devRef .tc main_v23) : S1x40.Idx → EReal) (ix2 (0 : Fin 1) c')
    = (W main_arg9 : S40.Idx → EReal) (ix1 c') := by
  after_results; exact shapeCast_a_1a_apply _ _ 0 c'

end Host

theorem layerK_congr {h h' : Fin 10000 → Fin 128 → EReal} {msg msg' : Fin 640000 → Fin 128 → EReal}
    {dst dst' : Fin 640000 → BitVec 32} {Ws Ws' Wn Wn' : Fin 128 → Fin 128 → EReal} {b b' : Fin 128 → EReal}
    (e1 : h = h') (e2 : msg = msg') (e3 : dst = dst') (e4 : Ws = Ws') (e5 : Wn = Wn') (e6 : b = b') :
    layerK h msg dst Ws Wn b = layerK h' msg' dst' Ws' Wn' b' := by
  subst e1 e2 e3 e4 e5 e6; rfl

theorem clf_congr {h h' : Fin 10000 → Fin 128 → EReal} {Wc Wc' : Fin 128 → Fin 40 → EReal} {bc bc' : Fin 40 → EReal}
    (e1 : h = h') (e2 : Wc = Wc') (e3 : bc = bc') : clf h Wc bc = clf h' Wc' bc' := by
  subst e1 e2 e3; rfl

section Chain
variable (m : (ℓ : Loc nD τ sig) → Buf (Elt Ideal) ℓ) (ρ : Dev nD → PrngReg) (c : Dev nD)

theorem W2_arg (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans (W1_of m ρ c r h0)

theorem W4_arg (r : Ref sig .tc) (h0 : r ∉ hostOps0_W) (a0 : ∀ w, Pipeline.arrRef spec0 w ≠ r) (h1 : r ∉ hostOps1_W)
    (a1 : ∀ w, Pipeline.arrRef spec1 w ≠ r) : W4 m ρ c (Proc.devRef .tc r) = m ((c : Thread nD τ).loc r) :=
  (W4_of_ne m ρ c r a1).trans ((W3_of m ρ c r h1).trans (W2_arg m ρ c r h0 a0))

theorem region0_result :
    W2 m ρ c (Proc.devRef .tc main_v13)
      = arr2 (sageK (mat (m ((c : Thread nD τ).loc main_arg0) : S10000x128.Idx → EReal))
          (m ((c : Thread nD τ).loc main_arg1) : S2x640000.Idx → BitVec 32)
          (mat (m ((c : Thread nD τ).loc main_arg2) : S128x128.Idx → EReal))
          (mat (m ((c : Thread nD τ).loc main_arg3) : S128x128.Idx → EReal))
          (vec (m ((c : Thread nD τ).loc main_arg4) : S128.Idx → EReal))) :=
  (W2_arr m ρ c 6).trans ((sage0_arr (V1 m ρ) c).trans (congrArg arr2 (layerK_congr
    (congrArg mat (W1_of m ρ c main_arg0 (by decide)))
    (congrArg mat (host0_v11 (W0 m ρ c)))
    (funext (host0_v4 (W0 m ρ c)))
    (congrArg mat (W1_of m ρ c main_arg2 (by decide)))
    (congrArg mat (W1_of m ρ c main_arg3 (by decide)))
    (funext (host0_v12 (W0 m ρ c))))))

-- The second region does to the first region's result what the first does to the features.
theorem region1_result {L : Fin 10000 → Fin 128 → EReal} (h13 : W2 m ρ c (Proc.devRef .tc main_v13) = arr2 L) :
    W4 m ρ c (Proc.devRef .tc main_v22)
      = arr2 (sageK L (m ((c : Thread nD τ).loc main_arg1) : S2x640000.Idx → BitVec 32)
          (mat (m ((c : Thread nD τ).loc main_arg5) : S128x128.Idx → EReal))
          (mat (m ((c : Thread nD τ).loc main_arg6) : S128x128.Idx → EReal))
          (vec (m ((c : Thread nD τ).loc main_arg7) : S128.Idx → EReal))) := by
  have h1 : (fun e => (W2 m ρ c (Proc.devRef .tc main_v1) : S640000.Idx → BitVec 32) (ix1 e))
      = srcOf (m ((c : Thread nD τ).loc main_arg1) : S2x640000.Idx → BitVec 32) :=
    funext fun e => (congrFun (W2_of_ne m ρ c main_v1 (by decide)) (ix1 e)).trans (host0_v1 (W0 m ρ c) e)
  exact (W4_arr m ρ c 6).trans ((sage1_arr (V3 m ρ) c).trans (congrArg arr2 (layerK_congr
    (congrArg mat ((W3_of m ρ c main_v13 (by decide)).trans h13))
    ((congrArg mat (host1_v20 (W2 m ρ c))).trans (congrArg₂ (fun (T : S10000x128.Idx → EReal) s => gatherRows (mat T) s) h13 h1))
    (funext fun e => (congrFun ((W3_of m ρ c main_v4 (by decide)).trans ((W2_arr m ρ c 2).trans
      (((dat0 (V1 m ρ) c).arrAt_in 2 rfl _).trans (A_eq0 (V1 m ρ) c 2)))) (ix2 (0 : Fin 1) e)).trans (host0_v4 (W0 m ρ c) e))
    (congrArg mat ((W3_of m ρ c main_arg5 (by decide)).trans (W2_arg m ρ c main_arg5 (by decide) (by decide))))
    (congrArg mat ((W3_of m ρ c main_arg6 (by decide)).trans (W2_arg m ρ c main_arg6 (by decide) (by decide))))
    (funext fun d => (host1_v21 (W2 m ρ c) d).trans (by rw [W2_arg m ρ c main_arg7 (by decide) (by decide)]; rfl)))))

theorem kernel_result :
    W6 (F := Ideal) m ρ c (Proc.devRef .tc main_v24)
      = Cert.SageSpec.netK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) :=
  (W6_main_v24 m ρ c).trans ((clf2_arr (V5 m ρ) c).trans (congrArg arr2 (clf_congr
    (congrArg mat ((W5_of m ρ c main_v22 (by decide)).trans (region1_result m ρ c (region0_result m ρ c))))
    (congrArg mat ((W5_of m ρ c main_arg8 (by decide)).trans (W4_arg m ρ c main_arg8 (by decide) (by decide) (by decide) (by decide))))
    (funext fun c' => (host2_v23 (W4 m ρ c) c').trans (by rw [W4_arg m ρ c main_arg9 (by decide) (by decide) (by decide) (by decide)]; rfl)))))

end Chain

end Cert.KernelIdeal.Frame

end
-- ==== Proof.RefValue.lean ====
import proofs.«418495_j25864293056532_3_alg».proof.Defs
import proofs.«418495_j25864293056532_3_alg».proof.Proof.Gen.ReferenceIdeal.Run
import proofs.«418495_j25864293056532_3_alg».proof.Proof.Gen.ReferenceIdeal.Read
import proofs.«418495_j25864293056532_3_alg».proof.Proof.SageSpec
import proofs.«418495_j25864293056532_3_alg».proof.Proof.SageGlue
import proofs.«418495_j25864293056532_3_alg».proof.Proof.LibRows
import Idealize.ShloMosaic.Lib.ValueIdxRank1

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.SageSpec Cert.ReferenceIdeal.Read

abbrev vecScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem vecScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hsi : (vecScatterDims N E wf).siIdx (ix1 e) ⟨List.idxOf (0 : Fin 1) [0], Nat.one_pos⟩ = ix2 e (0 : Fin 1) :=
    funext fun b => Fin.ext (by
      match b with
      | ⟨0, _⟩ => rfl
      | ⟨1, _⟩ => rfl)
  have hs0 : (vecScatterDims N E wf).start (ix1 e) idx 0 = (idx (ix2 e (0 : Fin 1))).toInt :=
    congrArg (fun i => (idx i).toInt) hsi
  rw [resultIdx?_eq_some_iff, Fin.forall_fin_one, hs0]
  exact Eq.congr_left (add_zero _)

theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (vecScatterDims N E wf) x idx upd (ix1 n) = _
  unfold Ideal.hostScatterAdd
  congr 1
  rw [Finset.sum_filter, Finset.sum_filter, ← Equiv.sum_comp (idxEquiv1 (n := E)).symm]
  refine Finset.sum_congr rfl fun e _ => ?_
  show (if (vecScatterDims N E wf).resultIdx? (ix1 e) idx = some (ix1 n) then upd (ix1 e) else 0) = _
  simp only [vecScatter_resultIdx]

private theorem idx_src (e : Fin 640000) :
    idx_main_v0 (idx_main_v1 (idx_main_v9 (ix2 e (0 : Fin 1)))) = ix2 (0 : Fin 2) e := by
  funext a; refine Fin.ext ?_
  match a with
  | ⟨0, _⟩ => rfl
  | ⟨1, _⟩ => exact Nat.mod_eq_of_lt e.isLt

private theorem idx_dst (e : Fin 640000) :
    idx_main_v2 (idx_main_v3 (idx_main_v12 (ix2 e (0 : Fin 1)))) = ix2 (1 : Fin 2) e := by
  funext a; refine Fin.ext ?_
  match a with
  | ⟨0, _⟩ => rfl
  | ⟨1, _⟩ => exact Nat.mod_eq_of_lt e.isLt

private theorem select_wrap (s : BitVec 32) :
    Scalar.select (IntOp.cmpi .slt s 0#32) (IntOp.addi s 10000#32) s = wrapW s := by
  unfold Scalar.select IntOp.cmpi IntOp.addi wrapW
  cases hs : BitVec.slt s 0#32 <;> simp

theorem srcCol_read (x1 : IVec S2x640000 32) (e : Fin 640000) :
    val_main_v9 (F := Ideal) x1 (ix2 e (0 : Fin 1)) = wrapW (srcOf x1 e) := by
  rw [val_main_v9_apply, val_main_v8_apply, val_main_v5_apply, val_main_v7_apply, val_main_v4_apply, val_main_c_apply,
    val_main_v6_apply, val_main_c_0_apply, val_main_v1_apply, val_main_v0_apply, idx_src]
  exact select_wrap _

theorem dstCol_read (x1 : IVec S2x640000 32) (e : Fin 640000) :
    val_main_v12 (F := Ideal) x1 (ix2 e (0 : Fin 1)) = dstOf x1 e := by
  rw [val_main_v12_apply, val_main_v3_apply, val_main_v2_apply, idx_dst]
  rfl

theorem gather_read (h : FVec Ideal S10000x128 .f32) (x1 : IVec S2x640000 32) (e : Fin 640000) (k : Fin 128) :
    Host.gather gather_S10000x128_S640000x1_S640000x128_1_0_n_n_0_1_1128 h (val_main_v9 (F := Ideal) x1) (ix2 e k)
      = gatherRows (mat h) (srcOf x1) e k := by
  refine (rowGather_apply (N := 10000) (E := 640000) (C := 128) (by decide)
    gather_S10000x128_S640000x1_S640000x128_1_0_n_n_0_1_1128_wf h _ e k).trans ?_
  exact congrArg (fun r : Fin 10000 => h (ix2 r k)) (Fin.ext (congrArg (fun w : BitVec 32 => min w.toInt.toNat 9999) (srcCol_read x1 e)))

theorem agg_read (h : FVec Ideal S10000x128 .f32) (x1 : IVec S2x640000 32) (n : Fin 10000) (k : Fin 128) :
    Host.scatterAdd (F := Ideal) scatter_S10000x128_S640000x1_S640000x128_1_0_0_1 (val_main_v11 (F := Ideal))
        (val_main_v12 (F := Ideal) x1)
        (Host.gather gather_S10000x128_S640000x1_S640000x128_1_0_n_n_0_1_1128 h (val_main_v9 (F := Ideal) x1)) (ix2 n k)
      = aggR (gatherRows (mat h) (srcOf x1)) (dstOf x1) n k := by
  refine (rowScatterAdd_apply (N := 10000) (E := 640000) (C := 128)
    scatter_S10000x128_S640000x1_S640000x128_1_0_0_1_wf _ _ _ n k).trans ?_
  rw [val_main_v11_apply, val_main_cst_apply]
  exact congrArg₂ (· + ·) rfl (Finset.sum_congr (Finset.filter_congr fun e _ => by rw [dstCol_read]) fun e _ => gather_read h x1 e k)

theorem deg_read (x1 : IVec S2x640000 32) (n : Fin 10000) :
    val_main_v17 (F := Ideal) x1 (ix1 n) = degR (dstOf x1) n := by
  refine (vecScatterAdd_apply (N := 10000) (E := 640000) scatter_S10000_S640000x1_S640000_n_0_0_1_wf _ _ _ n).trans ?_
  rw [val_main_v15_apply, val_main_cst_2_apply]
  refine congrArg₂ (· + ·) rfl (Finset.sum_congr (Finset.filter_congr fun e _ => ?_) fun e _ => ?_)
  · rw [show val_main_v16 (F := Ideal) x1 = val_main_v12 (F := Ideal) x1 from rfl, dstCol_read]
  · rw [val_main_v14_apply, val_main_cst_1_apply]
    rfl

theorem divisor_read (x1 : IVec S2x640000 32) (n : Fin 10000) (k : Fin 128) :
    val_main_v21 (F := Ideal) x1 (ix2 n k) = max (degR (dstOf x1) n) oneW := by
  rw [val_main_v21_apply, val_main_v20_apply, val_main_v19_apply, val_main_v18_apply, val_main_cst_3_apply,
    show idx_main_v20 (idx_main_v21 (ix2 n k)) = ix1 n from eq_ix1 _, deg_read]
  rfl

def layerP (h : FVec Ideal S10000x128 .f32) (x1 : IVec S2x640000 32) (Ws Wn : FVec Ideal S128x128 .f32)
    (b : FVec Ideal S128 .f32) : FVec Ideal S10000x128 .f32 :=
  maximumf (addf (addf (val_main_v23 (F := Ideal) h Ws)
      (val_main_v23 (F := Ideal)
        (Host.divf (Host.scatterAdd (F := Ideal) scatter_S10000x128_S640000x1_S640000x128_1_0_0_1 (val_main_v11 (F := Ideal))
            (val_main_v12 (F := Ideal) x1)
            (Host.gather gather_S10000x128_S640000x1_S640000x128_1_0_n_n_0_1_1128 h (val_main_v9 (F := Ideal) x1)))
          (val_main_v21 (F := Ideal) x1)) Wn))
    (val_main_v27 (F := Ideal) b)) (val_main_call0_v0 (F := Ideal))

private theorem hostDivf_apply {s : Shape} (x y : FVec Ideal s .f32) (i : s.Idx) :
    Host.divf x y i = Ideal.div (x i) (y i) := rfl

private theorem lidx_eq (n : Fin 10000) (d k : Fin 128) : lidx_main_v23 (ix2 n d) k = ix2 n k := eq_ix2 _

private theorem ridx_eq (n : Fin 10000) (d k : Fin 128) : ridx_main_v23 (ix2 n d) k = ix2 k d := eq_ix2 _

theorem layerP_apply (h : FVec Ideal S10000x128 .f32) (x1 : IVec S2x640000 32) (Ws Wn : FVec Ideal S128x128 .f32)
    (b : FVec Ideal S128 .f32) (n : Fin 10000) (d : Fin 128) :
    layerP h x1 Ws Wn b (ix2 n d) = sageR (mat h) x1 (mat Ws) (mat Wn) (vec b) n d := by
  unfold layerP
  show max ((val_main_v23 (F := Ideal) h Ws (ix2 n d) + val_main_v23 (F := Ideal) _ Wn (ix2 n d))
    + val_main_v27 (F := Ideal) b (ix2 n d)) (val_main_call0_v0 (F := Ideal) (ix2 n d)) = _
  rw [val_main_v23_apply, val_main_v23_apply, val_main_v27_apply, val_main_v26_apply,
    show idx_main_v26 (idx_main_v27 (ix2 n d)) = ix1 d from eq_ix1 _, val_main_call0_v0_apply, val_main_call0_cst_apply]
  unfold sageR layerR layerOf
  refine congrArg₂ max (congrArg₂ (· + ·) (congrArg₂ (· + ·) ?_ ?_) rfl) rfl
  · refine Finset.sum_congr rfl fun k _ => ?_
    rw [lidx_eq, ridx_eq]
    rfl
  · refine Finset.sum_congr rfl fun k _ => ?_
    rw [lidx_eq, ridx_eq]
    rw [hostDivf_apply, agg_read, divisor_read]
    rfl

theorem layer1_read (x0 : FVec Ideal S10000x128 .f32) (x1 : IVec S2x640000 32) (x2 x3 : FVec Ideal S128x128 .f32)
    (x4 : FVec Ideal S128 .f32) :
    mat (val_main_v29 (F := Ideal) x0 x1 x2 x3 x4) = sageR (mat x0) x1 (mat x2) (mat x3) (vec x4) :=
  funext fun n => funext fun k => layerP_apply x0 x1 x2 x3 x4 n k

theorem layer2_read (x0 : FVec Ideal S10000x128 .f32) (x1 : IVec S2x640000 32) (x2 x3 : FVec Ideal S128x128 .f32)
    (x4 : FVec Ideal S128 .f32) (x5 x6 : FVec Ideal S128x128 .f32) (x7 : FVec Ideal S128 .f32) :
    mat (val_main_v55 (F := Ideal) x0 x1 x2 x3 x4 x5 x6 x7)
      = sageR (sageR (mat x0) x1 (mat x2) (mat x3) (vec x4)) x1 (mat x5) (mat x6) (vec x7) := by
  rw [← layer1_read]
  exact funext fun n => funext fun k => layerP_apply (val_main_v29 (F := Ideal) x0 x1 x2 x3 x4) x1 x5 x6 x7 n k

theorem v59_read (x0 : FVec Ideal S10000x128 .f32) (x1 : IVec S2x640000 32) (x2 x3 : FVec Ideal S128x128 .f32)
    (x4 : FVec Ideal S128 .f32) (x5 x6 : FVec Ideal S128x128 .f32) (x7 : FVec Ideal S128 .f32)
    (x8 : FVec Ideal S128x40 .f32) (x9 : FVec Ideal S40 .f32) :
    val_main_v59 (F := Ideal) x0 x1 x2 x3 x4 x5 x6 x7 x8 x9 = netR x0 x1 x2 x3 x4 x5 x6 x7 x8 x9 := by
  funext i
  obtain ⟨n, q, rfl⟩ : ∃ (n : Fin 10000) (q : Fin 40), i = ix2 n q := ⟨i 0, i 1, eq_ix2 i⟩
  rw [val_main_v59_apply, val_main_v56_apply, val_main_v58_apply, val_main_v57_apply,
    show idx_main_v57 (idx_main_v58 (ix2 n q)) = ix1 q from eq_ix1 _]
  unfold netR
  rw [arr2_ix2, ← layer2_read]
  refine congrArg₂ (· + ·) (Finset.sum_congr rfl fun k _ => ?_) rfl
  rw [show lidx_main_v56 (ix2 n q) k = ix2 n k from eq_ix2 _, show ridx_main_v56 (ix2 n q) k = ix2 k q from eq_ix2 _]
  rfl

theorem ref_result (m : (ℓ : Loc nD τ sig) → Buf (Elt Ideal) ℓ) (c : Dev nD) :
    Cert.ReferenceIdeal.Value.res_out0 (F := Ideal) m c
      = Cert.SageSpec.netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  (val_main_v59_eq (F := Ideal) m c).trans (v59_read _ _ _ _ _ _ _ _ _ _)

end Cert.ReferenceIdeal.RefValue

end
-- ==== Proof.Finite.lean ====
import proofs.«418495_j25864293056532_3_alg».proof.Pre_finite_inputs
import proofs.«418495_j25864293056532_3_alg».proof.Proof.SageSpec
import Idealize.ShloMosaic.Lib.ReduceAll
import Idealize.ShloMosaic.PureOps.Ideal.Laws

noncomputable section

namespace Cert.Pre_finite_inputs

open Idealize.ShloMosaic

variable [Facts]

private instance subsingleton_S_ : Subsingleton S_.Idx := ⟨fun _ _ => funext fun d => d.elim0⟩

-- An entry whose absolute value compares below the positive infinity is neither infinity.
private theorem real_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi
        (cmpf .olt (Host.absf x) (broadcastInDim s ![] hb (constant (F := Ideal) S_ .f32 0x7F800000#32))) init hr hu
        ValueIdx.ix0 = 1#1)
    (i : s.Idx) : Cert.SageSpec.IsReal (x i) := by
  have h2 : Ideal.cmp .olt (max (x i) (-(x i))) (Ideal.ofBits .f32 0x7F800000#32) = 1#1 :=
    Host.reduce_andi_all _ init hr hu ValueIdx.ix0 e i
  induction hxi : x i using EReal.rec with
  | coe r => exact ⟨r, rfl⟩
  | bot => simp [hxi, Ideal.cmp, Ideal.ofBits, Ideal.ieee] at h2
  | top => simp [hxi, Ideal.cmp, Ideal.ofBits, Ideal.ieee] at h2

private theorem andi_ix0 (x y : IVec S_ 1) (e : andi x y ValueIdx.ix0 = 1#1) :
    x ValueIdx.ix0 = 1#1 ∧ y ValueIdx.ix0 = 1#1 :=
  IntOp.andi_eq_one.1 e

theorem real_of_fn (a0 : FVec Ideal S10000x128 .f32) (a1 : IVec S2x640000 32) (a2 a3 : FVec Ideal S128x128 .f32) (a4 : FVec Ideal S128 .f32) (a5 a6 : FVec Ideal S128x128 .f32) (a7 : FVec Ideal S128 .f32) (a8 : FVec Ideal S128x40 .f32) (a9 : FVec Ideal S40 .f32)
    (h : fn (F := Ideal) a0 a1 a2 a3 a4 a5 a6 a7 a8 a9 = fun _ => 1#1) :
    (∀ i, Cert.SageSpec.IsReal (a0 i)) ∧ (∀ i, Cert.SageSpec.IsReal (a2 i)) ∧ (∀ i, Cert.SageSpec.IsReal (a3 i)) ∧ (∀ i, Cert.SageSpec.IsReal (a4 i)) := by
  have h43 : fn (F := Ideal) a0 a1 a2 a3 a4 a5 a6 a7 a8 a9 ValueIdx.ix0 = 1#1 := congrFun h ValueIdx.ix0
  dsimp only [fn, fn_part1, fn_part2] at h43
  obtain ⟨h38, -⟩ := andi_ix0 _ _ h43
  obtain ⟨h33, -⟩ := andi_ix0 _ _ h38
  obtain ⟨h28, -⟩ := andi_ix0 _ _ h33
  obtain ⟨h23, -⟩ := andi_ix0 _ _ h28
  obtain ⟨h18, -⟩ := andi_ix0 _ _ h23
  obtain ⟨h13, h17⟩ := andi_ix0 _ _ h18
  obtain ⟨h8, h12⟩ := andi_ix0 _ _ h13
  obtain ⟨h3, h7⟩ := andi_ix0 _ _ h8
  exact ⟨real_of_all a0 _ _ _ _ h3, real_of_all a2 _ _ _ _ h7, real_of_all a3 _ _ _ _ h12, real_of_all a4 _ _ _ _ h17⟩

end Cert.Pre_finite_inputs

end
-- ==== Proof.lean ====
/-
  A two-layer mean-aggregating message-passing network with a linear classifier. The kernel program sums each node's
  incoming messages edge chunk by edge chunk, the reference in one sum; where the inputs are real numbers the two sums
  are one function, and with it the two networks.
-/
import proofs.«418495_j25864293056532_3_alg».proof.Defs
import proofs.«418495_j25864293056532_3_alg».proof.Proof.Gen.Kernel
import proofs.«418495_j25864293056532_3_alg».proof.Proof.Gen.KernelIdeal
import proofs.«418495_j25864293056532_3_alg».proof.Proof.Gen.ReferenceIdeal
import proofs.«418495_j25864293056532_3_alg».proof.Proof.Gen.Pre_finite_inputs
import proofs.«418495_j25864293056532_3_alg».proof.Proof.K.Run
import proofs.«418495_j25864293056532_3_alg».proof.Proof.KI.Run
import proofs.«418495_j25864293056532_3_alg».proof.Proof.KI.KValue
import proofs.«418495_j25864293056532_3_alg».proof.Proof.RefValue
import proofs.«418495_j25864293056532_3_alg».proof.Proof.Finite
import proofs.«418495_j25864293056532_3_alg».proof.Proof.SageGlue
import Idealize.ShloMosaic.Adequacy
import Idealize.ShloMosaic.Init

noncomputable section

namespace Cert.Proof

open Idealize.ShloMosaic Idealize.ShloMosaic.TcCoe Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  ⟨IdealRules.truncf_extf.statement _ .f32 .bf16, IdealRules.truncf_extf.statement _ .f32 .bf16⟩

open Cert.KernelIdeal Cert.KernelIdeal.Frame in
theorem algebraic : Cert.algebraic_KernelIdeal_ReferenceIdeal := by
  intro m ρ m' ρ' hpre hagree
  refine ⟨fun c => (fun a : (b : Ref sig .tc) → Buf (Elt Ideal) ((c.tc : Thread nD τ).loc b) =>
    Cert.SageSpec.netK (a main_arg0) (a main_arg1) (a main_arg2) (a main_arg3) (a main_arg4) (a main_arg5) (a main_arg6) (a main_arg7)
      (a main_arg8) (a main_arg9)) fun b => m ((c.tc : Thread nD τ).loc b), ?_, ?_⟩
  · refine (θ_run Cert.KernelIdeal.defs _ _).mono (fun r h c => ?_) (run_all (F := Ideal) m ρ)
    have k (b : Ref sig .tc) (hb : ¬ (Proc.devRef .tc b : DevRef τ sig).isScoped) hk :
        r.2.mem ((c.tc : Thread nD τ).loc b) = m ((c.tc : Thread nD τ).loc b) := (h c _ (mem_uc b hb)).trans (W6_keep m ρ c b hk)
    refine ⟨(h c _ (mem_uc main_v24 (by decide))).trans (kernel_result m ρ c), ?_, ?_, ?_, ?_, ?_, ?_, ?_, ?_, ?_, ?_⟩ <;>
      exact k _ (by decide) (by decide)
  · refine (θ_run Cert.ReferenceIdeal.defs _ _).mono (fun r h c => ⟨(h c).1.trans ?_, (h c).2⟩)
      (Cert.ReferenceIdeal.Value.run (F := Ideal) m' ρ')
    have hfin := Cert.Pre_finite_inputs.real_of_fn _ _ _ _ _ _ _ _ _ _ (hpre c)
    rw [show Cert.ReferenceIdeal.Value.res_main_v59 m' c = Cert.ReferenceIdeal.Value.res_out0 m' c from rfl,
      Cert.ReferenceIdeal.RefValue.ref_result m' c,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (Cert.SageSpec.netK_eq_netR _ _ _ _ _ _ _ _ _ _ hfin.1 hfin.2.1 hfin.2.2.1 hfin.2.2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
